-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S256 : Shape := ⟨1, ![256]⟩
abbrev S2x32x64 : Shape := ⟨3, ![2, 32, 64]⟩
abbrev S64 : Shape := ⟨1, ![64]⟩
abbrev S2x64x64 : Shape := ⟨3, ![2, 64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S256 : S_.BroadcastsInDim S256 (![] : Fin 0 → Fin S256.rank)
  reducesTo_S256_S_d0 : S256.ReducesTo [0] S_
  bcast_S_S2x32x64 : S_.BroadcastsInDim S2x32x64 (![] : Fin 0 → Fin S2x32x64.rank)
  reducesTo_S2x32x64_S_d0_1_2 : S2x32x64.ReducesTo [0, 1, 2] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x1 .f32) (main_arg15 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x1 .f32 := Host.absf main_arg14
  let main_cst_22 : FVec F S_ .f32 := constant S_ .f32 0x7F800000#32
  let main_v60 : FVec F S32x1 .f32 := broadcastInDim S32x1 ![] bcast_S_S32x1 main_cst_22
  let main_v61 : IVec S32x1 1 := cmpf .olt main_v59 main_v60
  let main_c_23 : IVec S_ 1 := constantI S_ 1 1#1
  let main_v62 : IVec S_ 1 := (fun x v => Host.reduce IntOp.andi x v reducesTo_S32x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64 .f32) (main_arg10 : FVec F S2x64x64 .f32) (main_arg11 : FVec F S64 .f32) (main_arg12 : FVec F S64x32 .f32) (main_arg13 : FVec F S32 .f32) (main_arg14 : FVec F S32x1 .f32) (main_arg15 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2x64x64 .f32 := Host.absf main_arg10
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S2x64x64 .f32) (main_arg7 : FVec F S64 .f32) (main_arg8 : FVec F S2x64x64 .f32) (main_arg9 : FVec F S64 .f32) (main_arg10 : FVec F S2x64x64 .f32) (main_arg11 : FVec F S64 .f32) (main_arg12 : FVec F S64x32 .f32) (main_arg13 : FVec F S32 .f32) (main_arg14 : FVec F S32x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg6
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64x64 .f32 := Host.absf main_arg8
  let main_cst_10 : FVec F S_ .f32 := constant S_ .f32 0x7F800000#32
  let main_v30 : FVec F S2x64x64 .f32 := broadcastInDim S2x64x64 ![] bcast_S_S2x64x64 main_cst_10
  let main_v31 : IVec S2x64x64 1 := cmpf .olt main_v29 main_v30
  let main_c_11 : IVec S_ 1 := constantI S_ 1 1#1
  let main_v32 : IVec S_ 1 := (fun x v => Host.reduce IntOp.andi x v reducesTo_S2x64x64_S_d0_1_2 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x32 .f32) (main_arg1 : IVec S2x1600000 32) (main_arg2 : IVec S100000 32) (main_arg3 : FVec F S256 .f32) (main_arg4 : FVec F S2x32x64 .f32) (main_arg5 : FVec F S64 .f32) (main_arg6 : FVec F S2x64x64 .f32) (main_arg7 : FVec F S64 .f32) (main_arg8 : FVec F S2x64x64 .f32) (main_arg9 : FVec F S64 .f32) (main_arg10 : FVec F S2x64x64 .f32) (main_arg11 : FVec F S64 .f32) (main_arg12 : FVec F S64x32 .f32) (main_arg13 : FVec F S32 .f32) (main_arg14 : FVec F S32x1 .f32) (main_arg15 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S256 .f32 := Host.absf main_arg3
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S2x32x64 .f32 := Host.absf main_arg4
  let main_cst_2 : FVec F S_ .f32 := constant S_ .f32 0x7F800000#32
  let main_v10 : FVec F S2x32x64 .f32 := broadcastInDim S2x32x64 ![] bcast_S_S2x32x64 main_cst_2
  let main_v11 : IVec S2x32x64 1 := cmpf .olt main_v9 main_v10
  let main_c_3 : IVec S_ 1 := constantI S_ 1 1#1
  let main_v12 : IVec S_ 1 := (fun x v => Host.reduce IntOp.andi x v reducesTo_S2x32x64_S_d0_1_2 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S256 : Shape := ⟨1, ![256]⟩
abbrev S2x32x64 : Shape := ⟨3, ![2, 32, 64]⟩
abbrev S64 : Shape := ⟨1, ![64]⟩
abbrev S2x64x64 : Shape := ⟨3, ![2, 64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x32 : Shape := ⟨2, ![1600000, 32]⟩
abbrev S1x32x64 : Shape := ⟨3, ![1, 32, 64]⟩
abbrev S32x64 : Shape := ⟨2, ![32, 64]⟩
abbrev S1x64 : Shape := ⟨2, ![1, 64]⟩
abbrev S100000x64 : Shape := ⟨2, ![100000, 64]⟩
abbrev S10000x32 : Shape := ⟨2, ![10000, 32]⟩
abbrev S10000x1 : Shape := ⟨2, ![10000, 1]⟩
abbrev S10000x64 : Shape := ⟨2, ![10000, 64]⟩
abbrev S1600000x64 : Shape := ⟨2, ![1600000, 64]⟩
abbrev S1x64x64 : Shape := ⟨3, ![1, 64, 64]⟩
abbrev S64x64 : Shape := ⟨2, ![64, 64]⟩
abbrev S1x32 : Shape := ⟨2, ![1, 32]⟩
abbrev S1x1 : Shape := ⟨2, ![1, 1]⟩
abbrev S256x1 : Shape := ⟨2, ![256, 1]⟩
abbrev S2000x64 : Shape := ⟨2, ![2000, 64]⟩
abbrev S2000x1 : Shape := ⟨2, ![2000, 1]⟩
abbrev S256x64 : Shape := ⟨2, ![256, 64]⟩
abbrev S2000x256 : Shape := ⟨2, ![2000, 256]⟩
abbrev S256x32 : Shape := ⟨2, ![256, 32]⟩

abbrev nBuf : Space → Nat
  | .hbm => 196
  | .vmem => 50
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S256, .f32⟩
  | 4 => ⟨S2x32x64, .f32⟩
  | 5 => ⟨S64, .f32⟩
  | 6 => ⟨S2x64x64, .f32⟩
  | 7 => ⟨S64, .f32⟩
  | 8 => ⟨S2x64x64, .f32⟩
  | 9 => ⟨S64, .f32⟩
  | 10 => ⟨S2x64x64, .f32⟩
  | 11 => ⟨S64, .f32⟩
  | 12 => ⟨S64x32, .f32⟩
  | 13 => ⟨S32, .f32⟩
  | 14 => ⟨S32x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S1600000, .i1⟩
  | 21 => ⟨S_, .f32⟩
  | 22 => ⟨S_, .f32⟩
  | 23 => ⟨S1600000, .f32⟩
  | 24 => ⟨S1600000, .f32⟩
  | 25 => ⟨S1600000, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .i1⟩
  | 37 => ⟨S_, .f32⟩
  | 38 => ⟨S_, .f32⟩
  | 39 => ⟨S100000, .f32⟩
  | 40 => ⟨S100000, .f32⟩
  | 41 => ⟨S100000, .f32⟩
  | 42 => ⟨S_, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S256, .f32⟩
  | 51 => ⟨S256, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .i32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x1, .i32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x32, .f32⟩
  | 116 => ⟨S1600000x32, .f32⟩
  | 117 => ⟨S1600000x32, .f32⟩
  | 118 => ⟨S_, .f32⟩
  | 119 => ⟨S100000x32, .f32⟩
  | 120 => ⟨S1600000x1, .i32⟩
  | 121 => ⟨S100000x32, .f32⟩
  | 122 => ⟨S1x32x64, .f32⟩
  | 123 => ⟨S32x64, .f32⟩
  | 124 => ⟨S1x32x64, .f32⟩
  | 125 => ⟨S32x64, .f32⟩
  | 126 => ⟨S1x64, .f32⟩
  | 127 => ⟨S100000x64, .f32⟩
  | _ => ⟨S100000x32, .f32⟩

abbrev hbmTy0_1 (i : Nat) : BufTy := match i % 128 with
  | 0 => ⟨S1600000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x64, .f32⟩
  | 10 => ⟨S1600000x64, .f32⟩
  | 11 => ⟨S1600000x64, .f32⟩
  | 12 => ⟨S_, .f32⟩
  | 13 => ⟨S100000x64, .f32⟩
  | 14 => ⟨S1600000x1, .i32⟩
  | 15 => ⟨S100000x64, .f32⟩
  | 16 => ⟨S1x64x64, .f32⟩
  | 17 => ⟨S64x64, .f32⟩
  | 18 => ⟨S1x64x64, .f32⟩
  | 19 => ⟨S64x64, .f32⟩
  | 20 => ⟨S1x64, .f32⟩
  | 21 => ⟨S100000x64, .f32⟩
  | 22 => ⟨S1600000x1, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x64, .f32⟩
  | 32 => ⟨S1600000x64, .f32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S1x64x64, .f32⟩
  | 39 => ⟨S64x64, .f32⟩
  | 40 => ⟨S1x64x64, .f32⟩
  | 41 => ⟨S64x64, .f32⟩
  | 42 => ⟨S1x64, .f32⟩
  | 43 => ⟨S100000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1x64x64, .f32⟩
  | 61 => ⟨S64x64, .f32⟩
  | 62 => ⟨S1x64x64, .f32⟩
  | 63 => ⟨S64x64, .f32⟩
  | 64 => ⟨S1x64, .f32⟩
  | 65 => ⟨S1x32, .f32⟩
  | 66 => ⟨S1x1, .f32⟩
  | 67 => ⟨S256x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S10000x1, .f32⟩
  | .local _ .vmem, ⟨5, _⟩ => ⟨S10000x1, .f32⟩
  | .local _ .vmem, ⟨6, _⟩ => ⟨S32x64, .f32⟩
  | .local _ .vmem, ⟨7, _⟩ => ⟨S32x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x1, .f32⟩
  | .local _ .vmem, ⟨27, _⟩ => ⟨S10000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x1, .f32⟩
  | .local _ .vmem, ⟨38, _⟩ => ⟨S2000x1, .f32⟩
  | .local _ .vmem, ⟨39, _⟩ => ⟨S64x64, .f32⟩
  | .local _ .vmem, ⟨40, _⟩ => ⟨S64x64, .f32⟩
  | .local _ .vmem, ⟨41, _⟩ => ⟨S1x64, .f32⟩
  | .local _ .vmem, ⟨42, _⟩ => ⟨S2000x1, .i32⟩
  | .local _ .vmem, ⟨43, _⟩ => ⟨S2000x1, .i32⟩
  | .local _ .vmem, ⟨44, _⟩ => ⟨S64x32, .f32⟩
  | .local _ .vmem, ⟨45, _⟩ => ⟨S1x32, .f32⟩
  | .local _ .vmem, ⟨46, _⟩ => ⟨S32x1, .f32⟩
  | .local _ .vmem, ⟨47, _⟩ => ⟨S1x1, .f32⟩
  | .local _ .vmem, ⟨48, _⟩ => ⟨S256x1, .f32⟩
  | .local _ .vmem, ⟨49, _⟩ => ⟨S256x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_v12 : Ref sig .tc := ⟨.hbm, 35, rfl⟩
abbrev main_v13 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_v18 : Ref sig .tc := ⟨.hbm, 48, rfl⟩
abbrev main_cst_7 : Ref sig .tc := ⟨.hbm, 49, rfl⟩
abbrev main_v19 : Ref sig .tc := ⟨.hbm, 50, rfl⟩
abbrev main_v20 : Ref sig .tc := ⟨.hbm, 51, rfl⟩
abbrev main_c : Ref sig .tc := ⟨.hbm, 52, rfl⟩
abbrev main_v21 : Ref sig .tc := ⟨.hbm, 53, rfl⟩
abbrev main_v22 : Ref sig .tc := ⟨.hbm, 54, rfl⟩
abbrev main_c_8 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_9 : Ref sig .tc := ⟨.hbm, 63, rfl⟩
abbrev main_v30 : Ref sig .tc := ⟨.hbm, 64, rfl⟩
abbrev main_v31 : Ref sig .tc := ⟨.hbm, 65, rfl⟩
abbrev main_c_10 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_11 : Ref sig .tc := ⟨.hbm, 73, rfl⟩
abbrev main_v38 : Ref sig .tc := ⟨.hbm, 74, rfl⟩
abbrev main_v39 : Ref sig .tc := ⟨.hbm, 75, rfl⟩
abbrev main_c_12 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_13 : Ref sig .tc := ⟨.hbm, 82, rfl⟩
abbrev main_v45 : Ref sig .tc := ⟨.hbm, 83, rfl⟩
abbrev main_v46 : Ref sig .tc := ⟨.hbm, 84, rfl⟩
abbrev main_c_14 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_15 : Ref sig .tc := ⟨.hbm, 92, rfl⟩
abbrev main_v53 : Ref sig .tc := ⟨.hbm, 93, rfl⟩
abbrev main_v54 : Ref sig .tc := ⟨.hbm, 94, rfl⟩
abbrev main_c_16 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_17 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_c_18 : Ref sig .tc := ⟨.hbm, 107, rfl⟩
abbrev main_v65 : Ref sig .tc := ⟨.hbm, 108, rfl⟩
abbrev main_v66 : Ref sig .tc := ⟨.hbm, 109, rfl⟩
abbrev main_c_19 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_20 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_c_21 : Ref sig .tc := ⟨.hbm, 129, rfl⟩
abbrev main_v84 : Ref sig .tc := ⟨.hbm, 130, rfl⟩
abbrev main_v85 : Ref sig .tc := ⟨.hbm, 131, rfl⟩
abbrev main_c_22 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_23 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_24 : Ref sig .tc := ⟨.hbm, 151, rfl⟩
abbrev main_v103 : Ref sig .tc := ⟨.hbm, 152, rfl⟩
abbrev main_v104 : Ref sig .tc := ⟨.hbm, 153, rfl⟩
abbrev main_c_25 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_26 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_c_27 : Ref sig .tc := ⟨.hbm, 173, rfl⟩
abbrev main_v122 : Ref sig .tc := ⟨.hbm, 174, rfl⟩
abbrev main_v123 : Ref sig .tc := ⟨.hbm, 175, rfl⟩
abbrev main_c_28 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_29 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg10_0 : Ref sig .tc := ⟨.vmem, 47, rfl⟩
abbrev cc3_stg11_0 : Ref sig .tc := ⟨.vmem, 48, rfl⟩
abbrev cc3_scratch0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc3_sem7_0 : DmaSem sig := 44
abbrev cc3_sem8_0 : DmaSem sig := 45
abbrev cc3_sem9_0 : DmaSem sig := 46
abbrev cc3_sem10_0 : DmaSem sig := 47
abbrev cc3_sem11_0 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def k3_cond1 (i : grid3.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k3_cond2 (i : grid3.Coords) : BitVec 1 :=
  let arg0 : BitVec 32 := BitVec.ofNat 32 (i 0).val
  let c49_i32 : BitVec 32 := 49#32
  let v38 : BitVec 1 := Scalar.cmpi .eq arg0 c49_i32
  let v39 : BitVec 32 := Scalar.extui v38
  let c0_i32_21 : BitVec 32 := 0#32
  let v40 : BitVec 1 := Scalar.cmpi .ne v39 c0_i32_21
  v40

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x1 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S64x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S32x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S256x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S256 : S_.BroadcastsInDim S256 (![] : Fin 0 → Fin S256.rank)
  bcast_S100000_S100000x1_0 : S100000.BroadcastsInDim S100000x1 (![0] : Fin 1 → Fin S100000x1.rank)
  shapeCasts_S100000_S100000x1 : S100000.ShapeCasts S100000x1
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S2x32x64_S1x32x64_0_0_0 : S2x32x64.Slices ![0, 0, 0] S1x32x64
  shapeCasts_S1x32x64_S32x64 : S1x32x64.ShapeCasts S32x64
  slices_S2x32x64_S1x32x64_1_0_0 : S2x32x64.Slices ![1, 0, 0] S1x32x64
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  shapeCasts_S10000x64_S10000x64 : S10000x64.ShapeCasts S10000x64
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S32_S1x32 : S32.ShapeCasts S1x32
  shapeCasts_S1_S1x1 : S1.ShapeCasts S1x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  broadcasts_S1x64_S2000x64 : S1x64.Broadcasts S2000x64
  iota_S2000x256_d1_w32 : S2000x256.Iotas .tc 32 [1]
  broadcasts_S2000x1_S2000x256 : S2000x1.Broadcasts S2000x256
  natLt_1_32 : 1 < 32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S256_S1600000x1_S1600000_n_0_n_n_0_1_1_wf : GatherDims.WF S256 S1600000x1 S1600000 [] [0] [] [0] [] 1 ![1]
  gather_S256_S100000x1_S100000_n_0_n_n_0_1_1_wf : GatherDims.WF S256 S100000x1 S100000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S2000x64_S64x64_S2000x64_1_0_0_1_n_n_wf : DotDims.WF S2000x64 S64x64 S2000x64 [1] [0] [0] [1] [] []
  dot_S2000x256_S2000x64_S256x64_0_0_1_1_n_n_wf : DotDims.WF S2000x256 S2000x64 S256x64 [0] [0] [1] [1] [] []
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x1.size a ≤ S100000x1.size a
  hwx3_6 : ∀ i : grid3.Coords, EltTy.bits .i32 = 32 ∨ (Rect.block (s := S100000x1) S2000x1.size (cc3_transform_6 i) (hinb3_6 i)).WholeWords (EltTy.packing .i32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x32.size a ≤ S64x32.size a
  hwx3_7 : ∀ i : grid3.Coords, EltTy.bits .f32 = 32 ∨ (Rect.block (s := S64x32) S64x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x32.size a ≤ S1x32.size a
  hwx3_8 : ∀ i : grid3.Coords, EltTy.bits .f32 = 32 ∨ (Rect.block (s := S1x32) S1x32.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S32x1.size a ≤ S32x1.size a
  hwx3_9 : ∀ i : grid3.Coords, EltTy.bits .f32 = 32 ∨ (Rect.block (s := S32x1) S32x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S256x1.size a ≤ S256x1.size a
  hwx3_11 : ∀ i : grid3.Coords, EltTy.bits .f32 = 32 ∨ (Rect.block (s := S256x1) S256x1.size (cc3_transform_11 i) (hinb3_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S256_S1600000x1_S1600000_n_0_n_n_0_1_1 : GatherDims S256 S1600000x1 S1600000 where
  offsetDims := []
  collapsedSliceDims := [0]
  operandBatchingDims := []
  startIndicesBatchingDims := []
  startIndexMap := [0]
  indexVectorDim := 1
  sliceSizes := ![1]
  wf := gather_S256_S1600000x1_S1600000_n_0_n_n_0_1_1_wf
def gather_S256_S100000x1_S100000_n_0_n_n_0_1_1 : GatherDims S256 S100000x1 S100000 where
  offsetDims := []
  collapsedSliceDims := [0]
  operandBatchingDims := []
  startIndicesBatchingDims := []
  startIndexMap := [0]
  indexVectorDim := 1
  sliceSizes := ![1]
  wf := gather_S256_S100000x1_S100000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x256_S2000x64_S256x64_0_0_1_1_n_n : DotDims S2000x256 S2000x64 S256x64 where
  lhsContracting := [0]
  rhsContracting := [0]
  lhsNonContracting := [1]
  rhsNonContracting := [1]
  lhsBatch := []
  rhsBatch := []
  wf := dot_S2000x256_S2000x64_S256x64_0_0_1_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v78) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v80) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v81) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v82) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v82) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v95) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v97) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v99) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v100) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v101) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v101) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v114) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v116) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v118) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v119) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v120) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v120) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v133) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v135) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v137) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v138) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S2000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg12) S64x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v139) S1x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg14) S32x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v140) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v141) S256x1.size cc3_transform_11 reads3_11 true true 1 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev idle3 : Fin 12 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k3_cond1 i == 1#1) && !(k3_cond2 i == 1#1) | ⟨_ + 12, h⟩ => absurd h (Nat.not_lt.2 (Nat.le_add_left _ _))

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S256 : Shape := ⟨1, ![256]⟩
abbrev S2x32x64 : Shape := ⟨3, ![2, 32, 64]⟩
abbrev S64 : Shape := ⟨1, ![64]⟩
abbrev S2x64x64 : Shape := ⟨3, ![2, 64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x32x64 : Shape := ⟨3, ![1, 32, 64]⟩
abbrev S32x64 : Shape := ⟨2, ![32, 64]⟩
abbrev S100000x64 : Shape := ⟨2, ![100000, 64]⟩
abbrev S1600000x32 : Shape := ⟨2, ![1600000, 32]⟩
abbrev S1x64 : Shape := ⟨2, ![1, 64]⟩
abbrev S1x64x64 : Shape := ⟨3, ![1, 64, 64]⟩
abbrev S64x64 : Shape := ⟨2, ![64, 64]⟩
abbrev S1600000x64 : Shape := ⟨2, ![1600000, 64]⟩
abbrev S256x64 : Shape := ⟨2, ![256, 64]⟩
abbrev S256x32 : Shape := ⟨2, ![256, 32]⟩
abbrev S1x32 : Shape := ⟨2, ![1, 32]⟩
abbrev S256x1 : Shape := ⟨2, ![256, 1]⟩
abbrev S1x1 : Shape := ⟨2, ![1, 1]⟩

abbrev nBuf : Space → Nat
  | .hbm => 251
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S256, .f32⟩
  | 4 => ⟨S2x32x64, .f32⟩
  | 5 => ⟨S64, .f32⟩
  | 6 => ⟨S2x64x64, .f32⟩
  | 7 => ⟨S64, .f32⟩
  | 8 => ⟨S2x64x64, .f32⟩
  | 9 => ⟨S64, .f32⟩
  | 10 => ⟨S2x64x64, .f32⟩
  | 11 => ⟨S64, .f32⟩
  | 12 => ⟨S64x32, .f32⟩
  | 13 => ⟨S32, .f32⟩
  | 14 => ⟨S32x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S1600000, .i1⟩
  | 21 => ⟨S_, .f32⟩
  | 22 => ⟨S_, .f32⟩
  | 23 => ⟨S1600000, .f32⟩
  | 24 => ⟨S1600000, .f32⟩
  | 25 => ⟨S1600000, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .i1⟩
  | 37 => ⟨S_, .f32⟩
  | 38 => ⟨S_, .f32⟩
  | 39 => ⟨S100000, .f32⟩
  | 40 => ⟨S100000, .f32⟩
  | 41 => ⟨S100000, .f32⟩
  | 42 => ⟨S_, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S256, .f32⟩
  | 51 => ⟨S256, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S1600000, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000, .f32⟩
  | 72 => ⟨S1600000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .i32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000, .f32⟩
  | 101 => ⟨S_, .f32⟩
  | 102 => ⟨S100000, .f32⟩
  | 103 => ⟨S100000, .f32⟩
  | 104 => ⟨S1x32x64, .f32⟩
  | 105 => ⟨S32x64, .f32⟩
  | 106 => ⟨S100000x64, .f32⟩
  | 107 => ⟨S1600000x1, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x32, .f32⟩
  | 117 => ⟨S1600000x32, .f32⟩
  | 118 => ⟨S1600000x32, .f32⟩
  | 119 => ⟨S_, .f32⟩
  | 120 => ⟨S100000x32, .f32⟩
  | 121 => ⟨S1600000x1, .i32⟩
  | 122 => ⟨S100000x32, .f32⟩
  | 123 => ⟨S100000x1, .f32⟩
  | 124 => ⟨S100000x32, .f32⟩
  | 125 => ⟨S100000x32, .f32⟩
  | 126 => ⟨S100000x32, .f32⟩
  | 127 => ⟨S1x32x64, .f32⟩
  | _ => ⟨S100000x32, .f32⟩

abbrev hbmTy0_1 (i : Nat) : BufTy := match i % 128 with
  | 0 => ⟨S32x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S1x64x64, .f32⟩
  | 10 => ⟨S64x64, .f32⟩
  | 11 => ⟨S100000x64, .f32⟩
  | 12 => ⟨S1600000x1, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S100000x1, .f32⟩
  | 29 => ⟨S100000x64, .f32⟩
  | 30 => ⟨S100000x64, .f32⟩
  | 31 => ⟨S100000x64, .f32⟩
  | 32 => ⟨S1x64x64, .f32⟩
  | 33 => ⟨S64x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S1x64x64, .f32⟩
  | 43 => ⟨S64x64, .f32⟩
  | 44 => ⟨S100000x64, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000x1, .f32⟩
  | 62 => ⟨S100000x64, .f32⟩
  | 63 => ⟨S100000x64, .f32⟩
  | 64 => ⟨S100000x64, .f32⟩
  | 65 => ⟨S1x64x64, .f32⟩
  | 66 => ⟨S64x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S1x64x64, .f32⟩
  | 76 => ⟨S64x64, .f32⟩
  | 77 => ⟨S100000x64, .f32⟩
  | 78 => ⟨S1600000x1, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S1600000x64, .f32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S100000x1, .f32⟩
  | 95 => ⟨S100000x64, .f32⟩
  | 96 => ⟨S100000x64, .f32⟩
  | 97 => ⟨S100000x64, .f32⟩
  | 98 => ⟨S1x64x64, .f32⟩
  | 99 => ⟨S64x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .f32⟩
  | 109 => ⟨S256x64, .f32⟩
  | 110 => ⟨S100000x1, .i32⟩
  | 111 => ⟨S256x64, .f32⟩
  | 112 => ⟨S256x32, .f32⟩
  | 113 => ⟨S1x32, .f32⟩
  | 114 => ⟨S256x32, .f32⟩
  | 115 => ⟨S256x32, .f32⟩
  | 116 => ⟨S_, .f32⟩
  | 117 => ⟨S256x32, .f32⟩
  | 118 => ⟨S256x32, .f32⟩
  | 119 => ⟨S256x1, .f32⟩
  | 120 => ⟨S1x1, .f32⟩
  | 121 => ⟨S256x1, .f32⟩
  | 122 => ⟨S256x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_cst_3 : Ref sig .tc := ⟨.hbm, 34, rfl⟩
abbrev main_v12 : Ref sig .tc := ⟨.hbm, 35, rfl⟩
abbrev main_v13 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v14 : Ref sig .tc := ⟨.hbm, 40, rfl⟩
abbrev main_v15 : Ref sig .tc := ⟨.hbm, 41, rfl⟩
abbrev main_cst_5 : Ref sig .tc := ⟨.hbm, 42, rfl⟩
abbrev main_v16 : Ref sig .tc := ⟨.hbm, 43, rfl⟩
abbrev main_v17 : Ref sig .tc := ⟨.hbm, 44, rfl⟩
abbrev main_cst_6 : Ref sig .tc := ⟨.hbm, 45, rfl⟩
abbrev main_call2_v0 : Ref sig .tc := ⟨.hbm, 46, rfl⟩
abbrev main_call2_v1 : Ref sig .tc := ⟨.hbm, 47, rfl⟩
abbrev main_v18 : Ref sig .tc := ⟨.hbm, 48, rfl⟩
abbrev main_cst_7 : Ref sig .tc := ⟨.hbm, 49, rfl⟩
abbrev main_v19 : Ref sig .tc := ⟨.hbm, 50, rfl⟩
abbrev main_v20 : Ref sig .tc := ⟨.hbm, 51, rfl⟩
abbrev main_c : Ref sig .tc := ⟨.hbm, 52, rfl⟩
abbrev main_v21 : Ref sig .tc := ⟨.hbm, 53, rfl⟩
abbrev main_v22 : Ref sig .tc := ⟨.hbm, 54, rfl⟩
abbrev main_c_8 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_c_9 : Ref sig .tc := ⟨.hbm, 63, rfl⟩
abbrev main_v30 : Ref sig .tc := ⟨.hbm, 64, rfl⟩
abbrev main_v31 : Ref sig .tc := ⟨.hbm, 65, rfl⟩
abbrev main_c_10 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_11 : Ref sig .tc := ⟨.hbm, 73, rfl⟩
abbrev main_v38 : Ref sig .tc := ⟨.hbm, 74, rfl⟩
abbrev main_v39 : Ref sig .tc := ⟨.hbm, 75, rfl⟩
abbrev main_c_12 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_13 : Ref sig .tc := ⟨.hbm, 82, rfl⟩
abbrev main_v45 : Ref sig .tc := ⟨.hbm, 83, rfl⟩
abbrev main_v46 : Ref sig .tc := ⟨.hbm, 84, rfl⟩
abbrev main_c_14 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_15 : Ref sig .tc := ⟨.hbm, 92, rfl⟩
abbrev main_v53 : Ref sig .tc := ⟨.hbm, 93, rfl⟩
abbrev main_v54 : Ref sig .tc := ⟨.hbm, 94, rfl⟩
abbrev main_c_16 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_17 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_c_18 : Ref sig .tc := ⟨.hbm, 108, rfl⟩
abbrev main_v66 : Ref sig .tc := ⟨.hbm, 109, rfl⟩
abbrev main_v67 : Ref sig .tc := ⟨.hbm, 110, rfl⟩
abbrev main_c_19 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_20 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call3_cst : Ref sig .tc := ⟨.hbm, 134, rfl⟩
abbrev main_call3_v0 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_c_21 : Ref sig .tc := ⟨.hbm, 141, rfl⟩
abbrev main_v94 : Ref sig .tc := ⟨.hbm, 142, rfl⟩
abbrev main_v95 : Ref sig .tc := ⟨.hbm, 143, rfl⟩
abbrev main_c_22 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_23 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_call4_cst : Ref sig .tc := ⟨.hbm, 167, rfl⟩
abbrev main_call4_v0 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_c_24 : Ref sig .tc := ⟨.hbm, 174, rfl⟩
abbrev main_v122 : Ref sig .tc := ⟨.hbm, 175, rfl⟩
abbrev main_v123 : Ref sig .tc := ⟨.hbm, 176, rfl⟩
abbrev main_c_25 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_cst_26 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_call5_cst : Ref sig .tc := ⟨.hbm, 200, rfl⟩
abbrev main_call5_v0 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_c_27 : Ref sig .tc := ⟨.hbm, 207, rfl⟩
abbrev main_v150 : Ref sig .tc := ⟨.hbm, 208, rfl⟩
abbrev main_v151 : Ref sig .tc := ⟨.hbm, 209, rfl⟩
abbrev main_c_28 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_29 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_call6_cst : Ref sig .tc := ⟨.hbm, 233, rfl⟩
abbrev main_call6_v0 : Ref sig .tc := ⟨.hbm, 234, rfl⟩
abbrev main_v173 : Ref sig .tc := ⟨.hbm, 235, rfl⟩
abbrev main_cst_30 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_call7_cst : Ref sig .tc := ⟨.hbm, 244, rfl⟩
abbrev main_call7_v0 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S256 : S_.BroadcastsInDim S256 (![] : Fin 0 → Fin S256.rank)
  bcast_S100000_S100000x1_0 : S100000.BroadcastsInDim S100000x1 (![0] : Fin 1 → Fin S100000x1.rank)
  slices_S2x32x64_S1x32x64_0_0_0 : S2x32x64.Slices ![0, 0, 0] S1x32x64
  shapeCasts_S1x32x64_S32x64 : S1x32x64.ShapeCasts S32x64
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  slices_S2x32x64_S1x32x64_1_0_0 : S2x32x64.Slices ![1, 0, 0] S1x32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S100000x1_S100000x64_0_1 : S100000x1.BroadcastsInDim S100000x64 (![0, 1] : Fin 2 → Fin S100000x64.rank)
  slices_S2x64x64_S1x64x64_1_0_0 : S2x64x64.Slices ![1, 0, 0] S1x64x64
  bcast_S_S256x64 : S_.BroadcastsInDim S256x64 (![] : Fin 0 → Fin S256x64.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  bcast_S_S256x32 : S_.BroadcastsInDim S256x32 (![] : Fin 0 → Fin S256x32.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S256_S1600000x1_S1600000_n_0_n_n_0_1_1_wf : GatherDims.WF S256 S1600000x1 S1600000 [] [0] [] [0] [] 1 ![1]
  gather_S256_S100000x1_S100000_n_0_n_n_0_1_1_wf : GatherDims.WF S256 S100000x1 S100000 [] [0] [] [0] [] 1 ![1]
  dot_S100000x32_S32x64_S100000x64_1_0_0_1_n_n_wf : DotDims.WF S100000x32 S32x64 S100000x64 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S256x64_S100000x1_S100000x64_1_0_0_1_wf : ScatterDims.WF S256x64 S100000x1 S100000x64 [1] [0] [0] 1
  dot_S256x64_S64x32_S256x32_1_0_0_1_n_n_wf : DotDims.WF S256x64 S64x32 S256x32 [1] [0] [0] [1] [] []
  dot_S256x32_S32x1_S256x1_1_0_0_1_n_n_wf : DotDims.WF S256x32 S32x1 S256x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S256_S1600000x1_S1600000_n_0_n_n_0_1_1 : GatherDims S256 S1600000x1 S1600000 where
  offsetDims := []
  collapsedSliceDims := [0]
  operandBatchingDims := []
  startIndicesBatchingDims := []
  startIndexMap := [0]
  indexVectorDim := 1
  sliceSizes := ![1]
  wf := gather_S256_S1600000x1_S1600000_n_0_n_n_0_1_1_wf
def gather_S256_S100000x1_S100000_n_0_n_n_0_1_1 : GatherDims S256 S100000x1 S100000 where
  offsetDims := []
  collapsedSliceDims := [0]
  operandBatchingDims := []
  startIndicesBatchingDims := []
  startIndexMap := [0]
  indexVectorDim := 1
  sliceSizes := ![1]
  wf := gather_S256_S100000x1_S100000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

class Facts : Prop extends Facts₀ where

variable [Facts]
-- ==== Proof.K.Reg0.lean ====
import proofs.«411333_j58291296141746_2_alg».proof.Proof.Gen.Kernel.Launch
import proofs.«411333_j58291296141746_2_alg».proof.Proof.Gen.Kernel.Skeleton
import proofs.«411333_j58291296141746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S10000x32 := Rect.unit (s := S10000x32) ![0, 0] S10000x32.size inb_S10000x32_S10000x32_0_0
abbrev r0_d : Rect S10000x1 := Rect.unit (s := S10000x1) ![0, 0] S10000x1.size inb_S10000x1_S10000x1_0_0
abbrev r0_w : Rect S32x64 := Rect.unit (s := S32x64) ![0, 0] S32x64.size inb_S32x64_S32x64_0_0
abbrev r0_b : Rect S1x64 := Rect.unit (s := S1x64) ![0, 0] S1x64.size inb_S1x64_S1x64_0_0
abbrev r0_o : Rect S10000x64 := Rect.unit (s := S10000x64) ![0, 0] S10000x64.size inb_S10000x64_S10000x64_0_0

def out0_6 (x0 x1 : Vec F S10000x32 .f32) (x2 : Vec F S10000x1 .f32) (x3 x4 : Vec F S32x64 .f32) (x5 : Vec F S1x64 .f32) : Vec F S10000x64 .f32 :=
  View.canon [⟨r0_o, k0_pay1 (View.ld x0 r0_a) (View.ld x1 r0_a) (View.ld x2 r0_d) (View.ld x3 r0_w) (View.ld x4 r0_w) (View.ld x5 r0_b)⟩]

set_option maxHeartbeats 1000000 in
/-- The body reads its six input buffers whole and stores the output buffer whole, once. -/
theorem sound_kernel0 (c : Dev nD) (E : Set ℕ) (i : grid0.Coords) (arg1 : Memref sig .tc .vmem S10000x32 .f32) (harg1 : arg1.IsWhole) (arg2 : Memref sig .tc .vmem S10000x32 .f32) (harg2 : arg2.IsWhole) (arg3 : Memref sig .tc .vmem S10000x1 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S10000x64 .f32) (harg7 : arg7.IsWhole)
    (x0 x1 : Vec F S10000x32 .f32) (x2 : Vec F S10000x1 .f32) (x3 x4 : Vec F S32x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__cheb_kernel i arg1 harg1 arg2 harg2 arg3 harg3 arg4 harg4 arg5 harg5 arg6 harg6 arg7 harg7) K := by
  simp only [cc0__cheb_kernel_eq_skeleton]; unfold cc0__cheb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by
  dsimp only [dat0]

/-- The body leaves each input's block in place, so what it finds there at a point is that point's block. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

/-- At any point the inputs are at their blocks, so the body's triple applies; the invariant and what is owed pass through unread. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d)))
    ⊢ wp frame (wpE (defs₀ (F := F)) Variants.none c none) Set.univ (bodyAt0 t) (fun _ => iprop((dat0 V c).Φ t.succ ∗ (dat0 V c).owesAt () t.succ
      ∗ owns (c : Thread nD τ) (st0_0 t) fullShare ((dat0 V c).after 0 t)
      ∗ owns (c : Thread nD τ) (st0_1 t) fullShare ((dat0 V c).after 1 t)
      ∗ owns (c : Thread nD τ) (st0_2 t) fullShare ((dat0 V c).after 2 t)
      ∗ owns (c : Thread nD τ) (st0_3 t) fullShare ((dat0 V c).after 3 t)
      ∗ owns (c : Thread nD τ) (st0_4 t) fullShare ((dat0 V c).after 4 t)
      ∗ owns (c : Thread nD τ) (st0_5 t) fullShare ((dat0 V c).after 5 t)
      ∗ owns (c : Thread nD τ) (st0_6 t) fullShare ((dat0 V c).after 6 t))) := by
  rw [show (dat0 V c).owesAt () t.succ = (dat0 V c).owesAt () t.castSucc from rfl]
  simp only [before0_0, before0_1, before0_2, before0_3, before0_4, before0_5]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«411333_j58291296141746_2_alg».proof.Proof.Gen.Kernel.Launch
import proofs.«411333_j58291296141746_2_alg».proof.Proof.Gen.Kernel.Skeleton
import proofs.«411333_j58291296141746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S10000x64 := Rect.unit (s := S10000x64) ![0, 0] S10000x64.size inb_S10000x64_S10000x64_0_0
abbrev r1_d : Rect S10000x1 := Rect.unit (s := S10000x1) ![0, 0] S10000x1.size inb_S10000x1_S10000x1_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S10000x64 := Rect.unit (s := S10000x64) ![0, 0] S10000x64.size inb_S10000x64_S10000x64_0_0

def out1_6 (x0 x1 : Vec F S10000x64 .f32) (x2 : Vec F S10000x1 .f32) (x3 x4 : Vec F S64x64 .f32) (x5 : Vec F S1x64 .f32) : Vec F S10000x64 .f32 :=
  View.canon [⟨r1_o, k1_pay1 (View.ld x0 r1_a) (View.ld x1 r1_a) (View.ld x2 r1_d) (View.ld x3 r1_w) (View.ld x4 r1_w) (View.ld x5 r1_b)⟩]

set_option maxHeartbeats 1000000 in
/-- The body reads its six input buffers whole and stores the output buffer whole, once. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 x1 : Vec F S10000x64 .f32) (x2 : Vec F S10000x1 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__cheb_kernel i arg1 harg1 arg2 harg2 arg3 harg3 arg4 harg4 arg5 harg5 arg6 harg6 arg7 harg7) K := by
  simp only [cc1__cheb_kernel_eq_skeleton]; unfold cc1__cheb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by
  dsimp only [dat1]

/-- The body leaves each input's block in place, so what it finds there at a point is that point's block. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

/-- At any point the inputs are at their blocks, so the body's triple applies; the invariant and what is owed pass through unread. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d)))
    ⊢ wp frame (wpE (defs₀ (F := F)) Variants.none c none) Set.univ (bodyAt1 t) (fun _ => iprop((dat1 V c).Φ t.succ ∗ (dat1 V c).owesAt () t.succ
      ∗ owns (c : Thread nD τ) (st1_0 t) fullShare ((dat1 V c).after 0 t)
      ∗ owns (c : Thread nD τ) (st1_1 t) fullShare ((dat1 V c).after 1 t)
      ∗ owns (c : Thread nD τ) (st1_2 t) fullShare ((dat1 V c).after 2 t)
      ∗ owns (c : Thread nD τ) (st1_3 t) fullShare ((dat1 V c).after 3 t)
      ∗ owns (c : Thread nD τ) (st1_4 t) fullShare ((dat1 V c).after 4 t)
      ∗ owns (c : Thread nD τ) (st1_5 t) fullShare ((dat1 V c).after 5 t)
      ∗ owns (c : Thread nD τ) (st1_6 t) fullShare ((dat1 V c).after 6 t))) := by
  rw [show (dat1 V c).owesAt () t.succ = (dat1 V c).owesAt () t.castSucc from rfl]
  simp only [before1_0, before1_1, before1_2, before1_3, before1_4, before1_5]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«411333_j58291296141746_2_alg».proof.Proof.Gen.Kernel.Launch
import proofs.«411333_j58291296141746_2_alg».proof.Proof.Gen.Kernel.Skeleton
import proofs.«411333_j58291296141746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S10000x64 := Rect.unit (s := S10000x64) ![0, 0] S10000x64.size inb_S10000x64_S10000x64_0_0
abbrev r2_d : Rect S10000x1 := Rect.unit (s := S10000x1) ![0, 0] S10000x1.size inb_S10000x1_S10000x1_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S10000x64 := Rect.unit (s := S10000x64) ![0, 0] S10000x64.size inb_S10000x64_S10000x64_0_0

def out2_6 (x0 x1 : Vec F S10000x64 .f32) (x2 : Vec F S10000x1 .f32) (x3 x4 : Vec F S64x64 .f32) (x5 : Vec F S1x64 .f32) : Vec F S10000x64 .f32 :=
  View.canon [⟨r2_o, k2_pay1 (View.ld x0 r2_a) (View.ld x1 r2_a) (View.ld x2 r2_d) (View.ld x3 r2_w) (View.ld x4 r2_w) (View.ld x5 r2_b)⟩]

set_option maxHeartbeats 1000000 in
/-- The body reads its six input buffers whole and stores the output buffer whole, once. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 x1 : Vec F S10000x64 .f32) (x2 : Vec F S10000x1 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__cheb_kernel i arg1 harg1 arg2 harg2 arg3 harg3 arg4 harg4 arg5 harg5 arg6 harg6 arg7 harg7) K := by
  simp only [cc2__cheb_kernel_eq_skeleton]; unfold cc2__cheb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by
  dsimp only [dat2]

/-- The body leaves each input's block in place, so what it finds there at a point is that point's block. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

/-- At any point the inputs are at their blocks, so the body's triple applies; the invariant and what is owed pass through unread. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d)))
    ⊢ wp frame (wpE (defs₀ (F := F)) Variants.none c none) Set.univ (bodyAt2 t) (fun _ => iprop((dat2 V c).Φ t.succ ∗ (dat2 V c).owesAt () t.succ
      ∗ owns (c : Thread nD τ) (st2_0 t) fullShare ((dat2 V c).after 0 t)
      ∗ owns (c : Thread nD τ) (st2_1 t) fullShare ((dat2 V c).after 1 t)
      ∗ owns (c : Thread nD τ) (st2_2 t) fullShare ((dat2 V c).after 2 t)
      ∗ owns (c : Thread nD τ) (st2_3 t) fullShare ((dat2 V c).after 3 t)
      ∗ owns (c : Thread nD τ) (st2_4 t) fullShare ((dat2 V c).after 4 t)
      ∗ owns (c : Thread nD τ) (st2_5 t) fullShare ((dat2 V c).after 5 t)
      ∗ owns (c : Thread nD τ) (st2_6 t) fullShare ((dat2 V c).after 6 t))) := by
  rw [show (dat2 V c).owesAt () t.succ = (dat2 V c).owesAt () t.castSucc from rfl]
  simp only [before2_0, before2_1, before2_2, before2_3, before2_4, before2_5]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«411333_j58291296141746_2_alg».proof.Proof.Gen.Kernel.Launch
import proofs.«411333_j58291296141746_2_alg».proof.Proof.Gen.Kernel.Skeleton
import proofs.«411333_j58291296141746_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import Idealize.ShloMosaic.Lib.Pipeline.TableIdle

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S256x64 .f32 := Memref.whole cc3_scratch0

abbrev rest3 (c : Dev nD) : sProp 𝕄 := Pipeline.scopedRestBut (Ix := Unit) (Name := ℕ) (U := UR sig nD τ) (Lvl := ℕ) (Val := Elt F) spec3 c [cc3_scratch0]

def acc3 (c : Dev nD) : (n : ℕ) → n < cfg3.N → Vec F S256x64 .f32
  | 0, h => k3_pay1 (k3_pay5 (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (iblk3 V c 6 ⟨0, h⟩) k3_pay3)
  | n + 1, h => k3_pay1 (k3_pay5 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) (acc3 c n (Nat.lt_of_succ_lt h)))

def out3 (c : Dev nD) (n : ℕ) (h : n < cfg3.N) : Vec F S256x1 .f32 :=
  if n = 49 then k3_pay2 (acc3 V c n h) (iblk3 V c 7 ⟨n, h⟩) (iblk3 V c 8 ⟨n, h⟩) (iblk3 V c 9 ⟨n, h⟩) (iblk3 V c 10 ⟨n, h⟩) else k3_pay4

def PhiS3 (c : Dev nD) : (n : ℕ) → n ≤ cfg3.N → sProp 𝕄
  | 0, _ => Pipeline.ΦA spec3 c
  | n + 1, hn => iprop(iprop(owns c.tc scM3 fullShare (acc3 V c n hn) ∗ rest3 c) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_11 (c : Dev nD) (t : Fin cfg3.N) : (dat3 V c).after 11 t = out3 V c t.val t.isLt := by dsimp only [dat3]

theorem share3 (c : Dev nD) (w : Fin cfg3.W) : (dat3 V c).share w = fullShare := (dat3 V c).share_full (fun _ => rfl) w

-- The two conditions and the output window's idle flag, in closed form over the grid.
theorem pts3 : ∀ t : Fin cfg3.N, (k3_cond1 (grid3.coords t) = 1#1 ↔ t.val = 0) ∧ (k3_cond2 (grid3.coords t) = 1#1 ↔ t.val = 49)
    ∧ cfg3.idle 11 (grid3.coords t) = decide (t.val ≠ 0 ∧ t.val ≠ 49) :=
  (by decide +kernel : ∀ t : Fin grid3.N, (k3_cond1 (grid3.coords t) = 1#1 ↔ t.val = 0) ∧ (k3_cond2 (grid3.coords t) = 1#1 ↔ t.val = 49)
    ∧ idle3 11 (grid3.coords t) = decide (t.val ≠ 0 ∧ t.val ≠ 49))

section
variable (c : Dev nD) (t : Fin cfg3.N)

-- The body leaves every input's block in place, so what it finds in an input's buffer at a point is that point's block.
theorem before3_0 (d) : (dat3 V c).before 0 t d = iblk3 V c 0 t := by apply Dat.before_in_eq_fetched <;> intros <;> rfl
theorem before3_1 (d) : (dat3 V c).before 1 t d = iblk3 V c 1 t := by apply Dat.before_in_eq_fetched <;> intros <;> rfl
theorem before3_2 (d) : (dat3 V c).before 2 t d = iblk3 V c 2 t := by apply Dat.before_in_eq_fetched <;> intros <;> rfl
theorem before3_3 (d) : (dat3 V c).before 3 t d = iblk3 V c 3 t := by apply Dat.before_in_eq_fetched <;> intros <;> rfl
theorem before3_4 (d) : (dat3 V c).before 4 t d = iblk3 V c 4 t := by apply Dat.before_in_eq_fetched <;> intros <;> rfl
theorem before3_5 (d) : (dat3 V c).before 5 t d = iblk3 V c 5 t := by apply Dat.before_in_eq_fetched <;> intros <;> rfl
theorem before3_6 (d) : (dat3 V c).before 6 t d = iblk3 V c 6 t := by apply Dat.before_in_eq_fetched <;> intros <;> rfl
theorem before3_7 (d) : (dat3 V c).before 7 t d = iblk3 V c 7 t := by apply Dat.before_in_eq_fetched <;> intros <;> rfl
theorem before3_8 (d) : (dat3 V c).before 8 t d = iblk3 V c 8 t := by apply Dat.before_in_eq_fetched <;> intros <;> rfl
theorem before3_9 (d) : (dat3 V c).before 9 t d = iblk3 V c 9 t := by apply Dat.before_in_eq_fetched <;> intros <;> rfl
theorem before3_10 (d) : (dat3 V c).before 10 t d = iblk3 V c 10 t := by apply Dat.before_in_eq_fetched <;> intros <;> rfl

end

theorem PhiA3_eq (c : Dev nD) :
    (Pipeline.ΦA spec3 c : sProp 𝕄)
      = iprop(iprop(iprop(∃ d, owns c.tc scM3 fullShare d) ∗ rest3 c) ∗ (∃ r, prngReg c r)) := by
  unfold Pipeline.ΦA; rw [scopedRest3_split]; simp only [scM3, owns_whole]; try rfl

theorem hin3 (c : Dev nD) : (Pipeline.ΦA spec3 c : sProp 𝕄) ⊢ (dat3 V c).Φ 0 := Entails.refl _

-- After the last point the scratch holds the finished sums: forgetting them gives back the invariant the region was entered with.
theorem hout3 (c : Dev nD) : (dat3 V c).Φ (Fin.last cfg3.N) ⊢ (Pipeline.ΦA spec3 c : sProp 𝕄) := by
  rw [PhiA3_eq]
  show iprop((_ ∗ _) ∗ _) ⊢ _
  iintro ⟨⟨HS, HR⟩, Hg⟩
  iframe HR Hg
  iexists _; iexact HS

-- Before position `n` the scratch holds what the point before left; before the first point, anything.
theorem Phi3_open (c : Dev nD) : ∀ (n : ℕ) (h : n ≤ cfg3.N),
    PhiS3 V c n h ⊢ iprop(∃ s, ⌜∀ m hm, n = m + 1 → s = acc3 V c m hm⌝ ∗ (owns c.tc scM3 fullShare s ∗ rest3 c) ∗ (∃ r, prngReg c r))
  | 0, _ => by
    rw [PhiS3, PhiA3_eq]
    iintro ⟨⟨⟨%s, HS⟩, HR⟩, Hg⟩
    iexists s; iframe HS HR Hg
    ipureintro; intro m hm e; cases e
  | n + 1, h => by
    rw [PhiS3]
    iintro H; iexists _; isplitr
    swap; · iexact H
    ipureintro; intro m hm e; cases e; rfl

section
variable {sig' : RefSig} {κ : Kind} {sp : Space} {r : ℕ} {sz off : Fin r → ℕ} {e : EltTy} (v : View sig' κ sp ⟨r, sz⟩ e) (f : v.ty.Contents (Elt F))
  (inb : ∀ a, off a + sz a ≤ sz a)
include inb

-- A rectangle of the buffer's own sizes fits only at zero offsets,
omit v f in
theorem off_zero : off = fun _ => 0 :=
  funext fun a => by have := inb a; omega

-- so a load through it reads the whole contents,
theorem readAt_full : v.readAt (Elt F) (Rect.unit (s := ⟨r, sz⟩) off sz inb).toLoadRect f = v.read (Elt F) f :=
  View.ld_unit_zero (S := ⟨r, sz⟩) (off_zero inb) inb _

-- and a store through it, the last of a list, leaves its payload.
theorem read_writes_full (w : Shape.Idx ⟨r, sz⟩ → Elt F e) (L : List (View.Piece (Elt F) ⟨r, sz⟩ e)) :
    v.read (Elt F) (v.writes (Elt F) f ((⟨Rect.unit (s := ⟨r, sz⟩) off sz inb, w⟩ : View.Piece (Elt F) ⟨r, sz⟩ e) :: L)) = w :=
  (View.read_writes_eq_canon v f _ fun y => ⟨_, List.mem_cons_self, View.mem_set_unit_zero (S := ⟨r, sz⟩) (off_zero inb) inb y⟩).trans
    (View.canon_cons_unit_zero (S := ⟨r, sz⟩) (off_zero inb) inb w L)

end

-- Held at contents that read `X` is held at the canonical contents of `X`.
theorem rep_of_read {sp : Space} {S : Shape} {e : EltTy} (c : Dev nD) (m : Memref sig .tc sp S e) {f : m.view.ty.Contents (Elt F)}
    {X : S.Idx → Elt F e} (h : m.view.read (Elt F) f = X) :
    (m.view.loc c.tc ↦[m.view.set]{fullShare} f : sProp 𝕄) ⊢ m.view.loc c.tc ↦[m.view.set]{fullShare} m.view.rep X :=
  h ▸ (owns_intro c.tc m fullShare f).trans (rep_of_owns c.tc m fullShare _)

section
variable (c : Dev nD) (i : grid3.Coords) (arg1 arg2 : Memref sig .tc .vmem S2000x64 .f32) (arg3 : Memref sig .tc .vmem S2000x1 .f32) (arg4 arg5 : Memref sig .tc .vmem S64x64 .f32) (arg6 : Memref sig .tc .vmem S1x64 .f32) (arg7 : Memref sig .tc .vmem S2000x1 .i32) (arg8 : Memref sig .tc .vmem S64x32 .f32) (arg9 : Memref sig .tc .vmem S1x32 .f32) (arg10 : Memref sig .tc .vmem S32x1 .f32) (arg11 : Memref sig .tc .vmem S1x1 .f32)
  (x0 x1 : Vec F S2000x64 .f32) (x2 : Vec F S2000x1 .f32) (x3 x4 : Vec F S64x64 .f32) (x5 : Vec F S1x64 .f32) (x6 : Vec F S2000x1 .i32) (x7 : Vec F S64x32 .f32) (x8 : Vec F S1x32 .f32) (x9 : Vec F S32x1 .f32) (x10 : Vec F S1x1 .f32)

-- The eleven input buffers at `x0 … x10`, beside `P`.
def held3 (P : sProp 𝕄) : sProp 𝕄 :=
  iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ P)

-- What a point leaves in the scratch that held `s`: this tile's contribution added, to zero at the first point.
def s3 (s : Vec F S256x64 .f32) : Vec F S256x64 .f32 :=
  k3_pay1 (k3_pay5 x0 x1 x2 x3 x4 x5 x6 (if k3_cond1 i = 1#1 then k3_pay3 else s))

-- What it leaves in the output buffer that held `o`: the head of the sums at the last point, zeros at the first, `o` between.
def o3 (o : Vec F S256x1 .f32) (s : Vec F S256x64 .f32) : Vec F S256x1 .f32 :=
  if k3_cond2 i = 1#1 then k3_pay2 (s3 i x0 x1 x2 x3 x4 x5 x6 s) x7 x8 x9 x10 else if k3_cond1 i = 1#1 then k3_pay4 else o

-- The body at any point: whichever of the two conditions hold there, it leaves the scratch at `s3` and the output buffer at `o3`.
theorem sound_kernel3 (arg12 : Memref sig .tc .vmem S256x1 .f32) (arg13 : Memref sig .tc .vmem S256x64 .f32) (E : Set ℕ) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
    (o : Vec F S256x1 .f32) (s : Vec F S256x64 .f32) (K : PUnit → sProp 𝕄) :
    iprop(held3 c arg1 arg2 arg3 arg4 arg5 arg6 arg7 arg8 arg9 arg10 arg11 x0 x1 x2 x3 x4 x5 x6 x7 x8 x9 x10 iprop(owns c.tc arg12 fullShare o ∗ owns c.tc arg13 fullShare s)
        ∗ (held3 c arg1 arg2 arg3 arg4 arg5 arg6 arg7 arg8 arg9 arg10 arg11 x0 x1 x2 x3 x4 x5 x6 x7 x8 x9 x10 iprop(owns c.tc arg12 fullShare (o3 i x0 x1 x2 x3 x4 x5 x6 x7 x8 x9 x10 o s) ∗ owns c.tc arg13 fullShare (s3 i x0 x1 x2 x3 x4 x5 x6 s)) -∗ K ⟨⟩))
      ⊢ wp frame (wpE (defs₀ (F := F)) Variants.none c none) E (cc3__cheb_pool_kernel i arg1 harg1 arg2 harg2 arg3 harg3 arg4 harg4 arg5 harg5 arg6 harg6 arg7 harg7 arg8 harg8 arg9 harg9 arg10 harg10 arg11 harg11 arg12 harg12 arg13 harg13) K := by
  simp only [cc3__cheb_pool_kernel_eq_skeleton, held3, owns_eq_rep]; unfold cc3__cheb_pool_kernel_skel
  iintro ⟨⟨H0, H1, H2, H3, H4, H5, H6, H7, H8, H9, H10, H11, HS⟩, Hk⟩
  sl_exec
  sl_step
  iapply Hk
  iframe
  isplitl [H11]
  · iapply (rep_of_read c arg12 ?_)
    on_goal 2 => iexact H11
    unfold o3 s3 sound_kernel3.sl.v41 sound_kernel3.sl.HS_1 sound_kernel3.sl.r sound_kernel3.sl.v33
    by_cases h1 : k3_cond1 i = 1#1 <;> by_cases h2 : k3_cond2 i = 1#1 <;>
      simp only [h1, h2, eq_self, ↓reduceIte, ↓reduceDIte, readAt_full, read_writes_full, View.read_rep, View.readCov_cons_toLoadRect]
  · iapply (rep_of_read c arg13 ?_)
    on_goal 2 => iexact HS
    unfold s3 sound_kernel3.sl.HS_1 sound_kernel3.sl.r sound_kernel3.sl.v33
    by_cases h1 : k3_cond1 i = 1#1 <;>
      simp only [h1, eq_self, ↓reduceIte, ↓reduceDIte, readAt_full, read_writes_full, View.read_rep]

end

section
variable (c : Dev nD) (t : Fin cfg3.N) (s : Vec F S256x64 .f32) (hs : ∀ m hm, t.val = m + 1 → s = acc3 V c m hm)
include hs

-- The sums after a point, from what the scratch held before it.
theorem acc3_step :
    s3 (grid3.coords t) (iblk3 V c 0 t) (iblk3 V c 1 t) (iblk3 V c 2 t) (iblk3 V c 3 t) (iblk3 V c 4 t) (iblk3 V c 5 t) (iblk3 V c 6 t) s = acc3 V c t.val t.isLt := by
  obtain ⟨n, hn⟩ := t
  unfold s3
  cases n with
  | zero => rw [if_pos ((pts3 _).1.mpr rfl)]; rfl
  | succ n => rw [if_neg fun h => Nat.succ_ne_zero n ((pts3 _).1.mp h), hs n _ rfl]; rfl

-- The output buffer after a point is as the proof data say: zeros after the first, the head after the last, as found between.
theorem leaves3_11 (d) :
    owns c.tc (st3_11 t) fullShare (o3 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) ((dat3 V c).before 11 t d) s) ⊢ (dat3 V c).leavesExact 11 t := by
  unfold o3; rw [acc3_step V c t s hs]
  obtain ⟨h1, h2, hi⟩ := pts3 t
  by_cases h49 : t.val = 49
  · rw [if_pos (h2.mpr h49), Dat.leavesExact, hi, decide_eq_false fun h => h.2 h49, after3_11, out3, if_pos h49]
  · rw [if_neg fun h => h49 (h2.mp h)]
    by_cases h0 : t.val = 0
    · rw [if_pos (h1.mpr h0), Dat.leavesExact, hi, decide_eq_false fun h => h.1 h0, after3_11, out3, if_neg h49]
    · rw [if_neg fun h => h0 (h1.mp h), Dat.leavesExact_idle _ 11 t (hi.trans (decide_eq_true ⟨h0, h49⟩))
        (Bool.eq_false_iff.2 fun hf => by have := (flush3_11 t).mp hf; have := t.isLt.trans_eq N_3; omega)]
      iintro H; iexists d; iexact H

end

theorem body_obligation3 (c : Dev nD) : BodyObligation (dat3 (F := F) V c) (defs₀ (F := F)) Variants.none () Set.univ := fun t => by
  rw [bigSep_W3, bigSep_W3]
  simp only [before3_0 V, before3_1 V, before3_2 V, before3_3 V, before3_4 V, before3_5 V, before3_6 V, before3_7 V, before3_8 V, before3_9 V, before3_10 V]
  show iprop(PhiS3 V c t.val _ ∗ _) ⊢ wp _ _ _ _ (fun _ => iprop(((_ ∗ _) ∗ _) ∗ (dat3 V c).owesAt () t.castSucc ∗ held3 c (st3_0 t) (st3_1 t) (st3_2 t) (st3_3 t) (st3_4 t) (st3_5 t) (st3_6 t) (st3_7 t) (st3_8 t) (st3_9 t) (st3_10 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) ((dat3 V c).leavesExact 11 t)))
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HI := (Phi3_open V c _ _) $$ HΦ
  icases HI with ⟨%s, %hs, ⟨HS, HR⟩, Hg⟩
  iapply (sound_kernel3 c (grid3.coords t) (st3_0 t) (st3_1 t) (st3_2 t) (st3_3 t) (st3_4 t) (st3_5 t) (st3_6 t) (st3_7 t) (st3_8 t) (st3_9 t) (st3_10 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (st3_11 t) scM3 Set.univ _ _ _ _ _ _ _ _ _ _ _ _ _ ((dat3 V c).before 11 t d11) s _)
  unfold held3
  rw [acc3_step V c t s hs]
  iframe
  iintro ⟨H0, H1, H2, H3, H4, H5, H6, H7, H8, H9, H10, H11, HS⟩
  iframe
  iapply (leaves3_11 V c t s hs d11); iexact H11

end Cert.Kernel.Hand

end
-- ==== Proof.K.Fold.lean ====
import proofs.«411333_j58291296141746_2_alg».proof.Proof.Gen.Kernel.Launch
import proofs.«411333_j58291296141746_2_alg».proof.Proof.Gen.Kernel.Skeleton
import proofs.«411333_j58291296141746_2_alg».proof.Proof.Gen.Kernel.Points
import proofs.«411333_j58291296141746_2_alg».proof.Proof.K.Reg0
import proofs.«411333_j58291296141746_2_alg».proof.Proof.K.Reg1
import proofs.«411333_j58291296141746_2_alg».proof.Proof.K.Reg2
import proofs.«411333_j58291296141746_2_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- `{y}` lies within the buffers of any list of references that holds `y`. -/
theorem one_sub {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

abbrev hostOps0_W : List (Ref sig .tc) :=
  [ main_v0, main_v1, main_v2, main_v3, main_v4, main_cst, main_cst_0 ]
abbrev hostOps0_1_W : List (Ref sig .tc) :=
  [ main_call0_v0, main_call0_v1, main_v5 ]
abbrev hostOps0_2_W : List (Ref sig .tc) :=
  [ main_v6, main_cst_1, main_v7, main_v8, main_v9, main_cst_2, main_v10, main_v11, main_cst_3, main_v12, main_v13, main_cst_4 ]
abbrev hostOps0_3_W : List (Ref sig .tc) :=
  [ main_call1_v0, main_call1_v1, main_v14 ]
abbrev hostOps0_4_W : List (Ref sig .tc) :=
  [ main_v15, main_cst_5, main_v16, main_v17, main_cst_6 ]
abbrev hostOps0_5_W : List (Ref sig .tc) :=
  [ main_call2_v0, main_call2_v1, main_v18 ]
abbrev hostOps0_6_W : List (Ref sig .tc) :=
  [ main_cst_7, main_v19, main_v20, main_c, main_v21, main_v22, main_c_8, main_v23, main_v24, main_v25, main_v26, main_v27, main_v28, main_v29,
    main_c_9, main_v30, main_v31, main_c_10, main_v32, main_v33, main_v34, main_v35, main_v36, main_v37,
    main_c_11, main_v38, main_v39, main_c_12, main_v40, main_v41, main_v42, main_v43, main_v44,
    main_c_13, main_v45, main_v46, main_c_14, main_v47, main_v48, main_v49, main_v50, main_v51, main_v52,
    main_c_15, main_v53, main_v54, main_c_16, main_v55, main_v56, main_v57, main_v58, main_v59,
    main_cst_17, main_v60, main_v61, main_v62, main_v63, main_v64,
    main_c_18, main_v65, main_v66, main_c_19, main_v67, main_v68, main_v69, main_v70, main_v71, main_v72, main_v73,
    main_cst_20, main_v74, main_v75, main_v76, main_v77, main_v78, main_v79, main_v80, main_v81 ]
abbrev hostOps1_W : List (Ref sig .tc) :=
  [ main_v83, main_c_21, main_v84, main_v85, main_c_22, main_v86, main_v87, main_v88, main_v89, main_v90, main_v91, main_v92,
    main_cst_23, main_v93, main_v94, main_v95, main_v96, main_v97, main_v98, main_v99, main_v100 ]
abbrev hostOps2_W : List (Ref sig .tc) :=
  [ main_v102, main_c_24, main_v103, main_v104, main_c_25, main_v105, main_v106, main_v107, main_v108, main_v109, main_v110, main_v111,
    main_cst_26, main_v112, main_v113, main_v114, main_v115, main_v116, main_v117, main_v118, main_v119 ]
abbrev hostOps3_W : List (Ref sig .tc) :=
  [ main_v121, main_c_27, main_v122, main_v123, main_c_28, main_v124, main_v125, main_v126, main_v127, main_v128, main_v129, main_v130,
    main_cst_29, main_v131, main_v132, main_v133, main_v134, main_v135, main_v136, main_v137, main_v138, main_v139, main_v140 ]

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec0 c (W7 m ρ c) fun w => (dat0 (V7 m ρ) c).arrAt w cfg0.N
abbrev W9 : Dev nD → Valuation τ sig (Elt F) := fun c => StableHlo.after hostOps1 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec1 c (W9 m ρ c) fun w => (dat1 (V9 m ρ) c).arrAt w cfg1.N
abbrev W11 : Dev nD → Valuation τ sig (Elt F) := fun c => StableHlo.after hostOps2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (V11 m ρ) c).arrAt w cfg2.N
abbrev W13 : Dev nD → Valuation τ sig (Elt F) := fun c => StableHlo.after hostOps3 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec3 c (W13 m ρ c) fun w => (dat3 (V13 m ρ) c).arrAt w cfg3.N

theorem W8_arr (c : Dev nD) (w : Fin cfg0.W) :
    W8 m ρ c (Proc.devRef .tc (Pipeline.arrRef spec0 w)) = (dat0 (V7 m ρ) c).arrAt w cfg0.N :=
  Pipeline.withArrays_arr spec0 launch0.win.arr_inj c _ _ w
theorem W10_arr (c : Dev nD) (w : Fin cfg1.W) :
    W10 m ρ c (Proc.devRef .tc (Pipeline.arrRef spec1 w)) = (dat1 (V9 m ρ) c).arrAt w cfg1.N :=
  Pipeline.withArrays_arr spec1 launch1.win.arr_inj c _ _ w
theorem W12_arr (c : Dev nD) (w : Fin cfg2.W) :
    W12 m ρ c (Proc.devRef .tc (Pipeline.arrRef spec2 w)) = (dat2 (V11 m ρ) c).arrAt w cfg2.N :=
  Pipeline.withArrays_arr spec2 launch2.win.arr_inj c _ _ w
theorem W14_arr (c : Dev nD) (w : Fin cfg3.W) :
    W14 m ρ c (Proc.devRef .tc (Pipeline.arrRef spec3 w)) = (dat3 (V13 m ρ) c).arrAt w cfg3.N :=
  Pipeline.withArrays_arr spec3 launch3.win.arr_inj c _ _ w

theorem W1_of (c : Dev nD) (r : Ref sig .tc) (h : r ∉ hostOps0_W) :
    W1 m ρ c (Proc.devRef .tc r) = W0 m ρ c (Proc.devRef .tc r) :=
  StableHlo.after_of_writes_sub hostOps0 _ (by repeat' first | constructor | exact one_sub (by decide)) h
theorem W2_of (c : Dev nD) (r : Ref sig .tc) (h : r ∉ hostOps0_1_W) :
    W2 m ρ c (Proc.devRef .tc r) = W1 m ρ c (Proc.devRef .tc r) :=
  StableHlo.after_of_writes_sub hostOps0_1 _ (by repeat' first | constructor | exact one_sub (by decide)) h
theorem W3_of (c : Dev nD) (r : Ref sig .tc) (h : r ∉ hostOps0_2_W) :
    W3 m ρ c (Proc.devRef .tc r) = W2 m ρ c (Proc.devRef .tc r) :=
  StableHlo.after_of_writes_sub hostOps0_2 _ (by repeat' first | constructor | exact one_sub (by decide)) h
theorem W4_of (c : Dev nD) (r : Ref sig .tc) (h : r ∉ hostOps0_3_W) :
    W4 m ρ c (Proc.devRef .tc r) = W3 m ρ c (Proc.devRef .tc r) :=
  StableHlo.after_of_writes_sub hostOps0_3 _ (by repeat' first | constructor | exact one_sub (by decide)) h
theorem W5_of (c : Dev nD) (r : Ref sig .tc) (h : r ∉ hostOps0_4_W) :
    W5 m ρ c (Proc.devRef .tc r) = W4 m ρ c (Proc.devRef .tc r) :=
  StableHlo.after_of_writes_sub hostOps0_4 _ (by repeat' first | constructor | exact one_sub (by decide)) h
theorem W6_of (c : Dev nD) (r : Ref sig .tc) (h : r ∉ hostOps0_5_W) :
    W6 m ρ c (Proc.devRef .tc r) = W5 m ρ c (Proc.devRef .tc r) :=
  StableHlo.after_of_writes_sub hostOps0_5 _ (by repeat' first | constructor | exact one_sub (by decide)) h
theorem W7_of (c : Dev nD) (r : Ref sig .tc) (h : r ∉ hostOps0_6_W) :
    W7 m ρ c (Proc.devRef .tc r) = W6 m ρ c (Proc.devRef .tc r) :=
  StableHlo.after_of_writes_sub hostOps0_6 _ (by repeat' first | constructor | exact one_sub (by decide)) h
theorem W9_of (c : Dev nD) (r : Ref sig .tc) (h : r ∉ hostOps1_W) :
    W9 m ρ c (Proc.devRef .tc r) = W8 m ρ c (Proc.devRef .tc r) :=
  StableHlo.after_of_writes_sub hostOps1 _ (by repeat' first | constructor | exact one_sub (by decide)) h
theorem W11_of (c : Dev nD) (r : Ref sig .tc) (h : r ∉ hostOps2_W) :
    W11 m ρ c (Proc.devRef .tc r) = W10 m ρ c (Proc.devRef .tc r) :=
  StableHlo.after_of_writes_sub hostOps2 _ (by repeat' first | constructor | exact one_sub (by decide)) h
theorem W13_of (c : Dev nD) (r : Ref sig .tc) (h : r ∉ hostOps3_W) :
    W13 m ρ c (Proc.devRef .tc r) = W12 m ρ c (Proc.devRef .tc r) :=
  StableHlo.after_of_writes_sub hostOps3 _ (by repeat' first | constructor | exact one_sub (by decide)) h

/-- Putting a region's arrays at their final contents changes its one output array only: an input array ends as it began. -/
theorem keep_of {cfg : Cfg sig Λ₀} {c : Dev nD} (dat : Dat τ (Elt F) Unit ℕ (UR sig nD τ) ℕ cfg c) (W : Valuation τ sig (Elt F))
    (hinj : Function.Injective (Pipeline.arrRef cfg.spec)) (hA : ∀ w, dat.A w = W (Proc.devRef .tc (Pipeline.arrRef cfg.spec w)))
    (o : Fin cfg.W) (hin : ∀ w, w ≠ o → (cfg.win w).isOut = false) (r : Ref sig .tc) (h : Pipeline.arrRef cfg.spec o ≠ r) :
    Pipeline.withArrays cfg.spec c W (fun w => dat.arrAt w cfg.N) (Proc.devRef .tc r) = W (Proc.devRef .tc r) := by
  by_cases hw : ∃ w, Pipeline.arrRef cfg.spec w = r
  · obtain ⟨w, rfl⟩ := hw
    rw [Pipeline.withArrays_arr _ hinj, dat.arrAt_in w (hin w fun e => h (e ▸ rfl)), hA]
  · exact Pipeline.withArrays_of_ne _ c _ _ r fun w e => hw ⟨w, e⟩

theorem W8_keep (c : Dev nD) (r : Ref sig .tc) (h : Pipeline.arrRef spec0 6 ≠ r) :
    W8 m ρ c (Proc.devRef .tc r) = W7 m ρ c (Proc.devRef .tc r) :=
  keep_of (dat0 (V7 m ρ) c) _ launch0.win.arr_inj (fun _ => rfl) 6 (by decide) r h
theorem W10_keep (c : Dev nD) (r : Ref sig .tc) (h : Pipeline.arrRef spec1 6 ≠ r) :
    W10 m ρ c (Proc.devRef .tc r) = W9 m ρ c (Proc.devRef .tc r) :=
  keep_of (dat1 (V9 m ρ) c) _ launch1.win.arr_inj (fun _ => rfl) 6 (by decide) r h
theorem W12_keep (c : Dev nD) (r : Ref sig .tc) (h : Pipeline.arrRef spec2 6 ≠ r) :
    W12 m ρ c (Proc.devRef .tc r) = W11 m ρ c (Proc.devRef .tc r) :=
  keep_of (dat2 (V11 m ρ) c) _ launch2.win.arr_inj (fun _ => rfl) 6 (by decide) r h
theorem W14_keep (c : Dev nD) (r : Ref sig .tc) (h : Pipeline.arrRef spec3 11 ≠ r) :
    W14 m ρ c (Proc.devRef .tc r) = W13 m ρ c (Proc.devRef .tc r) :=
  keep_of (dat3 (V13 m ρ) c) _ launch3.win.arr_inj (fun _ => rfl) 11 (by decide) r h

abbrev args : List (Ref sig .tc) :=
  [ main_arg0, main_arg1, main_arg2, main_arg3, main_arg4, main_arg5, main_arg6, main_arg7,
    main_arg8, main_arg9, main_arg10, main_arg11, main_arg12, main_arg13, main_arg14, main_arg15 ]

/-- No host operation writes an argument, and no region's output array is one. -/
theorem args_free : ∀ r ∈ args, r ∉ hostOps0_W ∧ r ∉ hostOps0_1_W ∧ r ∉ hostOps0_2_W ∧ r ∉ hostOps0_3_W ∧ r ∉ hostOps0_4_W
    ∧ r ∉ hostOps0_5_W ∧ r ∉ hostOps0_6_W ∧ r ∉ hostOps1_W ∧ r ∉ hostOps2_W ∧ r ∉ hostOps3_W
    ∧ Pipeline.arrRef spec0 6 ≠ r ∧ Pipeline.arrRef spec1 6 ≠ r ∧ Pipeline.arrRef spec2 6 ≠ r ∧ Pipeline.arrRef spec3 11 ≠ r := by
  decide

/-- So an argument holds at the last boundary what it held at launch: the fourteen steps undone one by one. -/
theorem W14_arg (c : Dev nD) (r : Ref sig .tc) (hr : r ∈ args) : W14 m ρ c (Proc.devRef .tc r) = m ((c : Thread nD τ).loc r) := by
  obtain ⟨a0, a1, a2, a3, a4, a5, a6, b1, b2, b3, h0, h1, h2, h3⟩ := args_free r hr
  rw [W14_keep m ρ c r h3, W13_of m ρ c r b3, W12_keep m ρ c r h2, W11_of m ρ c r b2, W10_keep m ρ c r h1, W9_of m ρ c r b1,
    W8_keep m ρ c r h0, W7_of m ρ c r a6, W6_of m ρ c r a5, W5_of m ρ c r a4, W4_of m ρ c r a3, W3_of m ρ c r a2,
    W2_of m ρ c r a1, W1_of m ρ c r a0]

abbrev adm : (p : Fin 4) → (pcfgs (F := F) p).Adm := fun p => (cfgs p).toPCfg_adm

/-- The four pipelines' proof data, each at its region's entry contents. -/
def pdats : (p : Fin 4) → (c : Dev nD) → Dat τ (Elt F) Unit ℕ (UR sig nD τ) ℕ (Pipeline.pin (pcfgs (F := F)) adm p) c
  | ⟨0, _⟩ => dat0 (V7 m ρ)
  | ⟨1, _⟩ => dat1 (V9 m ρ)
  | ⟨2, _⟩ => dat2 (V11 m ρ)
  | ⟨3, _⟩ => dat3 (V13 m ρ)

end Cert.Kernel.Hand

end
-- ==== Proof.K.Segs.lean ====
import proofs.«411333_j58291296141746_2_alg».proof.Proof.K.Fold

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0

/-- The rest of every thread state: the generator register at some state, and nothing owed. -/
abbrev R (c : Dev nD) : sProp 𝕄 := iprop((∃ r, prngReg c r) ∗ ∃ W, owes (c : Thread nD τ) (0 : CellTallies nD τ sig Unit) W)

/-- A host stretch entered at the contents `W`. -/
abbrev hseg (ops : List (HloOp τ sig (Elt F))) (hsub : ops.Forall fun op => op.bufs ⊆ StableHlo.tcRefs τ sig)
    (W : Dev nD → Valuation τ sig (Elt F)) (hfresh : ops.Forall fun op => op.fresh = ∅ := by repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state at the contents `W`. -/
abbrev Tat (W : Dev nD → Valuation τ sig (Elt F)) (c : Dev nD) : sProp 𝕄 :=
  iprop(StableHlo.held (c : Thread nD τ) (Pipeline.ucRefs τ sig) (W c) ∗ R c)

abbrev Tₙ (c : Dev nD) : sProp 𝕄 := iprop(StableHlo.held (c : Thread nD τ) (Pipeline.ucRefs τ sig) (W14 m ρ c) ∗ ∃ r, prngReg c r)

/-- To owe nothing is to owe the proof data's tallies wherever they are zero, -/
theorem owes_in {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; intro x _; exact Or.inl (hr ▸ Set.mem_univ x)
  iexact HO
/-- and conversely. -/
theorem owes_out {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

/-- The contents after pipeline `p`'s region entered at `Wi`: its arrays at their final contents, the other buffers unchanged. -/
abbrev Wout (p : Fin 4) (Wi : Dev nD → Valuation τ sig (Elt F)) (c : Dev nD) : Valuation τ sig (Elt F) :=
  Pipeline.withArrays (cfgs p).spec c (Wi c) fun w => (pdats m ρ p c).arrAt w (cfgs p).N

set_option backward.isDefEq.respectTransparency.types false in
/-- Pipeline `p`'s region entered at `Wi`: its arrays leave the unscoped buffers at entry and rejoin them at exit; nothing is owed. -/
def reg (p : Fin 4) (lf : Pipeline.LaunchFacts (nD := nD) (τ := τ) cfgs p) (Wi : Dev nD → Valuation τ sig (Elt F))
    (hb : ∀ c, BodyObligation (pdats m ρ p c) (defs₀ (F := F)) 𝒱₀ () Set.univ)
    (hq : ∀ c w, (pdats m ρ p c).q w = fullShare := by intros; rfl)
    (hA : ∀ c w, (pdats m ρ p c).A w = Wi c (Pipeline.arrRef (cfgs p).spec w) := by intros; rfl)
    (h0 : ∀ c t, (pdats m ρ p c).owed t = 0 := by intros; rfl) (hr : ∀ c, (pdats m ρ p c).recorded 0 = Set.univ := by intros; rfl)
    (hfst : ∀ c, (Pipeline.ΦA (cfgs p).spec c : sProp 𝕄) ⊢ (pdats m ρ p c).Φ 0 := by exact fun _ => .rfl)
    (hlst : ∀ c, (pdats m ρ p c).Φ (Fin.last _) ⊢ (Pipeline.ΦA (cfgs p).spec c : sProp 𝕄) := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := Tat Wi
  post := Tat (Wout m ρ p Wi)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in (pdats m ρ p c) 0 (h0 c 0) (hr c)); iexact Howes
    isplitl [Hreg]; · iexact Hreg
    iexact Hrest
  hin c := by
    refine BIBase.Entails.trans ?_ (hfst c)
    unfold Pipeline.ΦA
    iintro ⟨Hreg, -, Hsc⟩
    isplitl [Hsc]; · iexact Hsc
    iexact Hreg
  hout c := by
    rw [Pipeline.ownSems0_none]
    refine (hlst c).trans ?_
    unfold Pipeline.ΦA
    iintro ⟨Hsc, Hreg⟩
    isplitl [Hreg]; · iexact Hreg
    isplitr; · iempintro
    iexact Hsc
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c b) (fun b => Wout m ρ p Wi c b)
      ((pdats m ρ p c).arrAt · (cfgs p).N) (fun w => (Pipeline.withArrays_arr (cfgs p).spec lf.win.arr_inj c (Wi c) (fun w => (pdats m ρ p c).arrAt w (cfgs p).N) w).symm)
      fun b hb => Pipeline.withArrays_of_ne (cfgs p).spec c (Wi c) _ b fun w e => hb (Finset.mem_image.mpr ⟨w, Finset.mem_univ _, e⟩)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out (pdats m ρ p c) (Fin.last _) (h0 c _)); iexact Howes

/-- The program's fourteen items, each entered at the contents the one before it leaves. -/
abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .host (hseg hostOps0_4 hostOps0_4_sub (W4 m ρ)),
    .host (hseg hostOps0_5 hostOps0_5_sub (W5 m ρ)),
    .host (hseg hostOps0_6 hostOps0_6_sub (W6 m ρ)),
    .region (reg m ρ 0 launch0 (W7 m ρ) (body_obligation0 (V7 m ρ))),
    .host (hseg hostOps1 hostOps1_sub (W8 m ρ)),
    .region (reg m ρ 1 launch1 (W9 m ρ) (body_obligation1 (V9 m ρ))),
    .host (hseg hostOps2 hostOps2_sub (W10 m ρ)),
    .region (reg m ρ 2 launch2 (W11 m ρ) (body_obligation2 (V11 m ρ))),
    .host (hseg hostOps3 hostOps3_sub (W12 m ρ)),
    .region (reg m ρ 3 launch3 (W13 m ρ) (body_obligation3 (V13 m ρ)) (hfst := hin3 (V13 m ρ)) (hlst := hout3 (V13 m ρ))) ]

theorem main_run (c : Dev nD) : main (F := F) c = Pipeline.Seg.run (segs m ρ) := (main_chain c).trans (by chain_rfl)

set_option backward.isDefEq.respectTransparency.types false in
/-- The program terminates, and whatever follows from the final memory holding every unscoped buffer at `W14` holds. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W14 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tat (W0 m ρ)) (Tₙ := Tₙ m ρ)
    (hch := by repeat' first | constructor | exact fun _ => .rfl | exact fun _ => sep_assoc')
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W14 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W14 m ρ c) s')
      isplitl [Hbufs] <;> iassumption)
    (hQ := hQ)

/-- At the end the output array holds the last region's final contents, and each argument what it held at launch. -/
theorem run_full : θ_run defs (onTc (τ := τ) (main (F := F))) ⟨m, fun _ => 0, ρ⟩ (fun r => ∀ c : Dev nD,
      r.2.mem ((c.tc : Thread nD τ).loc main_v141) = (dat3 (V13 m ρ) c).arrAt 11 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c => ⟨(h c _ (mem_uc main_v141 (by decide))).trans (W14_arr m ρ c 11),
    (List.forall_iff_forall_mem (l := args) (p := fun r => s.mem ((c.tc : Thread nD τ).loc r) = m ((c.tc : Thread nD τ).loc r))).mpr fun r hr =>
      (h c _ (mem_uc r ((by decide : ∀ r ∈ args, ¬ (Proc.devRef .tc r : DevRef τ sig).isScoped) r hr))).trans (W14_arg m ρ c r hr)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_full m ρ)

end Cert.Kernel.Hand

end
-- ==== Proof.KI.Reg0.lean ====
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S10000x32 := Rect.unit (s := S10000x32) ![0, 0] S10000x32.size inb_S10000x32_S10000x32_0_0
abbrev r0_d : Rect S10000x1 := Rect.unit (s := S10000x1) ![0, 0] S10000x1.size inb_S10000x1_S10000x1_0_0
abbrev r0_w : Rect S32x64 := Rect.unit (s := S32x64) ![0, 0] S32x64.size inb_S32x64_S32x64_0_0
abbrev r0_b : Rect S1x64 := Rect.unit (s := S1x64) ![0, 0] S1x64.size inb_S1x64_S1x64_0_0
abbrev r0_o : Rect S10000x64 := Rect.unit (s := S10000x64) ![0, 0] S10000x64.size inb_S10000x64_S10000x64_0_0

def out0_6 (x0 x1 : Vec F S10000x32 .f32) (x2 : Vec F S10000x1 .f32) (x3 x4 : Vec F S32x64 .f32) (x5 : Vec F S1x64 .f32) : Vec F S10000x64 .f32 :=
  View.canon [⟨r0_o, k0_pay1 (View.ld x0 r0_a) (View.ld x1 r0_a) (View.ld x2 r0_d) (View.ld x3 r0_w) (View.ld x4 r0_w) (View.ld x5 r0_b)⟩]

set_option maxHeartbeats 1000000 in
/-- The body reads its six input buffers whole and stores the output buffer whole, once. -/
theorem sound_kernel0 (c : Dev nD) (E : Set ℕ) (i : grid0.Coords) (arg1 : Memref sig .tc .vmem S10000x32 .f32) (harg1 : arg1.IsWhole) (arg2 : Memref sig .tc .vmem S10000x32 .f32) (harg2 : arg2.IsWhole) (arg3 : Memref sig .tc .vmem S10000x1 .f32) (harg3 : arg3.IsWhole) (arg4 : Memref sig .tc .vmem S32x64 .f32) (harg4 : arg4.IsWhole) (arg5 : Memref sig .tc .vmem S32x64 .f32) (harg5 : arg5.IsWhole) (arg6 : Memref sig .tc .vmem S1x64 .f32) (harg6 : arg6.IsWhole) (arg7 : Memref sig .tc .vmem S10000x64 .f32) (harg7 : arg7.IsWhole)
    (x0 x1 : Vec F S10000x32 .f32) (x2 : Vec F S10000x1 .f32) (x3 x4 : Vec F S32x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__cheb_kernel i arg1 harg1 arg2 harg2 arg3 harg3 arg4 harg4 arg5 harg5 arg6 harg6 arg7 harg7) K := by
  simp only [cc0__cheb_kernel_eq_skeleton]; unfold cc0__cheb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by
  dsimp only [dat0]

/-- The body leaves each input's block in place, so what it finds there at a point is that point's block. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

/-- At any point the inputs are at their blocks, so the body's triple applies; the invariant and what is owed pass through unread. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d)))
    ⊢ wp frame (wpE (defs₀ (F := F)) Variants.none c none) Set.univ (bodyAt0 t) (fun _ => iprop((dat0 V c).Φ t.succ ∗ (dat0 V c).owesAt () t.succ
      ∗ owns (c : Thread nD τ) (st0_0 t) fullShare ((dat0 V c).after 0 t)
      ∗ owns (c : Thread nD τ) (st0_1 t) fullShare ((dat0 V c).after 1 t)
      ∗ owns (c : Thread nD τ) (st0_2 t) fullShare ((dat0 V c).after 2 t)
      ∗ owns (c : Thread nD τ) (st0_3 t) fullShare ((dat0 V c).after 3 t)
      ∗ owns (c : Thread nD τ) (st0_4 t) fullShare ((dat0 V c).after 4 t)
      ∗ owns (c : Thread nD τ) (st0_5 t) fullShare ((dat0 V c).after 5 t)
      ∗ owns (c : Thread nD τ) (st0_6 t) fullShare ((dat0 V c).after 6 t))) := by
  rw [show (dat0 V c).owesAt () t.succ = (dat0 V c).owesAt () t.castSucc from rfl]
  simp only [before0_0, before0_1, before0_2, before0_3, before0_4, before0_5]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_a : Rect S10000x64 := Rect.unit (s := S10000x64) ![0, 0] S10000x64.size inb_S10000x64_S10000x64_0_0
abbrev r1_d : Rect S10000x1 := Rect.unit (s := S10000x1) ![0, 0] S10000x1.size inb_S10000x1_S10000x1_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S10000x64 := Rect.unit (s := S10000x64) ![0, 0] S10000x64.size inb_S10000x64_S10000x64_0_0

def out1_6 (x0 x1 : Vec F S10000x64 .f32) (x2 : Vec F S10000x1 .f32) (x3 x4 : Vec F S64x64 .f32) (x5 : Vec F S1x64 .f32) : Vec F S10000x64 .f32 :=
  View.canon [⟨r1_o, k1_pay1 (View.ld x0 r1_a) (View.ld x1 r1_a) (View.ld x2 r1_d) (View.ld x3 r1_w) (View.ld x4 r1_w) (View.ld x5 r1_b)⟩]

set_option maxHeartbeats 1000000 in
/-- The body reads its six input buffers whole and stores the output buffer whole, once. -/
theorem sound_kernel1 (c : Dev nD) (E : Set ℕ) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 x1 : Vec F S10000x64 .f32) (x2 : Vec F S10000x1 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__cheb_kernel i arg1 harg1 arg2 harg2 arg3 harg3 arg4 harg4 arg5 harg5 arg6 harg6 arg7 harg7) K := by
  simp only [cc1__cheb_kernel_eq_skeleton]; unfold cc1__cheb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := rfl

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by
  dsimp only [dat1]

/-- The body leaves each input's block in place, so what it finds there at a point is that point's block. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

/-- At any point the inputs are at their blocks, so the body's triple applies; the invariant and what is owed pass through unread. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d)))
    ⊢ wp frame (wpE (defs₀ (F := F)) Variants.none c none) Set.univ (bodyAt1 t) (fun _ => iprop((dat1 V c).Φ t.succ ∗ (dat1 V c).owesAt () t.succ
      ∗ owns (c : Thread nD τ) (st1_0 t) fullShare ((dat1 V c).after 0 t)
      ∗ owns (c : Thread nD τ) (st1_1 t) fullShare ((dat1 V c).after 1 t)
      ∗ owns (c : Thread nD τ) (st1_2 t) fullShare ((dat1 V c).after 2 t)
      ∗ owns (c : Thread nD τ) (st1_3 t) fullShare ((dat1 V c).after 3 t)
      ∗ owns (c : Thread nD τ) (st1_4 t) fullShare ((dat1 V c).after 4 t)
      ∗ owns (c : Thread nD τ) (st1_5 t) fullShare ((dat1 V c).after 5 t)
      ∗ owns (c : Thread nD τ) (st1_6 t) fullShare ((dat1 V c).after 6 t))) := by
  rw [show (dat1 V c).owesAt () t.succ = (dat1 V c).owesAt () t.castSucc from rfl]
  simp only [before1_0, before1_1, before1_2, before1_3, before1_4, before1_5]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe H0 H1 H2 H3 H4 H5
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_a : Rect S10000x64 := Rect.unit (s := S10000x64) ![0, 0] S10000x64.size inb_S10000x64_S10000x64_0_0
abbrev r2_d : Rect S10000x1 := Rect.unit (s := S10000x1) ![0, 0] S10000x1.size inb_S10000x1_S10000x1_0_0
abbrev r2_w : Rect S64x64 := Rect.unit (s := S64x64) ![0, 0] S64x64.size inb_S64x64_S64x64_0_0
abbrev r2_b : Rect S1x64 := Rect.unit (s := S1x64) ![0, 0] S1x64.size inb_S1x64_S1x64_0_0
abbrev r2_o : Rect S10000x64 := Rect.unit (s := S10000x64) ![0, 0] S10000x64.size inb_S10000x64_S10000x64_0_0

def out2_6 (x0 x1 : Vec F S10000x64 .f32) (x2 : Vec F S10000x1 .f32) (x3 x4 : Vec F S64x64 .f32) (x5 : Vec F S1x64 .f32) : Vec F S10000x64 .f32 :=
  View.canon [⟨r2_o, k2_pay1 (View.ld x0 r2_a) (View.ld x1 r2_a) (View.ld x2 r2_d) (View.ld x3 r2_w) (View.ld x4 r2_w) (View.ld x5 r2_b)⟩]

set_option maxHeartbeats 1000000 in
/-- The body reads its six input buffers whole and stores the output buffer whole, once. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole)
    (x0 x1 : Vec F S10000x64 .f32) (x2 : Vec F S10000x1 .f32) (x3 x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__cheb_kernel i arg1 harg1 arg2 harg2 arg3 harg3 arg4 harg4 arg5 harg5 arg6 harg6 arg7 harg7) K := by
  simp only [cc2__cheb_kernel_eq_skeleton]; unfold cc2__cheb_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x64.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by
  dsimp only [dat2]

/-- The body leaves each input's block in place, so what it finds there at a point is that point's block. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

/-- At any point the inputs are at their blocks, so the body's triple applies; the invariant and what is owed pass through unread. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d))
      ∗ (∃ d, owns (c : Thread nD τ) (st2_3 t) fullShare ((dat2 V c).before 3 t d))
      ∗ (∃ d, owns (c : Thread nD τ) (st2_4 t) fullShare ((dat2 V c).before 4 t d))
      ∗ (∃ d, owns (c : Thread nD τ) (st2_5 t) fullShare ((dat2 V c).before 5 t d))
      ∗ (∃ d, owns (c : Thread nD τ) (st2_6 t) fullShare ((dat2 V c).before 6 t d)))
    ⊢ wp frame (wpE (defs₀ (F := F)) Variants.none c none) Set.univ (bodyAt2 t) (fun _ => iprop((dat2 V c).Φ t.succ ∗ (dat2 V c).owesAt () t.succ
      ∗ owns (c : Thread nD τ) (st2_0 t) fullShare ((dat2 V c).after 0 t)
      ∗ owns (c : Thread nD τ) (st2_1 t) fullShare ((dat2 V c).after 1 t)
      ∗ owns (c : Thread nD τ) (st2_2 t) fullShare ((dat2 V c).after 2 t)
      ∗ owns (c : Thread nD τ) (st2_3 t) fullShare ((dat2 V c).after 3 t)
      ∗ owns (c : Thread nD τ) (st2_4 t) fullShare ((dat2 V c).after 4 t)
      ∗ owns (c : Thread nD τ) (st2_5 t) fullShare ((dat2 V c).after 5 t)
      ∗ owns (c : Thread nD τ) (st2_6 t) fullShare ((dat2 V c).after 6 t))) := by
  rw [show (dat2 V c).owesAt () t.succ = (dat2 V c).owesAt () t.castSucc from rfl]
  simp only [before2_0, before2_1, before2_2, before2_3, before2_4, before2_5]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe H0 H1 H2 H3 H4 H5
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic
import Idealize.ShloMosaic.Lib.Pipeline.TableIdle

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S256x64 .f32 := Memref.whole cc3_scratch0

abbrev rest3 (c : Dev nD) : sProp 𝕄 := Pipeline.scopedRestBut (Ix := Unit) (Name := ℕ) (U := UR sig nD τ) (Lvl := ℕ) (Val := Elt F) spec3 c [cc3_scratch0]

def acc3 (c : Dev nD) : (n : ℕ) → n < cfg3.N → Vec F S256x64 .f32
  | 0, h => k3_pay1 (k3_pay5 (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (iblk3 V c 6 ⟨0, h⟩) k3_pay3)
  | n + 1, h => k3_pay1 (k3_pay5 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) (acc3 c n (Nat.lt_of_succ_lt h)))

def out3 (c : Dev nD) (n : ℕ) (h : n < cfg3.N) : Vec F S256x1 .f32 :=
  if n = 49 then k3_pay2 (acc3 V c n h) (iblk3 V c 7 ⟨n, h⟩) (iblk3 V c 8 ⟨n, h⟩) (iblk3 V c 9 ⟨n, h⟩) (iblk3 V c 10 ⟨n, h⟩) else k3_pay4

def PhiS3 (c : Dev nD) : (n : ℕ) → n ≤ cfg3.N → sProp 𝕄
  | 0, _ => Pipeline.ΦA spec3 c
  | n + 1, hn => iprop(iprop(owns c.tc scM3 fullShare (acc3 V c n hn) ∗ rest3 c) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_11 (c : Dev nD) (t : Fin cfg3.N) : (dat3 V c).after 11 t = out3 V c t.val t.isLt := by dsimp only [dat3]

theorem share3 (c : Dev nD) (w : Fin cfg3.W) : (dat3 V c).share w = fullShare := (dat3 V c).share_full (fun _ => rfl) w

-- The two conditions and the output window's idle flag, in closed form over the grid.
theorem pts3 : ∀ t : Fin cfg3.N, (k3_cond1 (grid3.coords t) = 1#1 ↔ t.val = 0) ∧ (k3_cond2 (grid3.coords t) = 1#1 ↔ t.val = 49)
    ∧ cfg3.idle 11 (grid3.coords t) = decide (t.val ≠ 0 ∧ t.val ≠ 49) :=
  (by decide +kernel : ∀ t : Fin grid3.N, (k3_cond1 (grid3.coords t) = 1#1 ↔ t.val = 0) ∧ (k3_cond2 (grid3.coords t) = 1#1 ↔ t.val = 49)
    ∧ idle3 11 (grid3.coords t) = decide (t.val ≠ 0 ∧ t.val ≠ 49))

section
variable (c : Dev nD) (t : Fin cfg3.N)

-- The body leaves every input's block in place, so what it finds in an input's buffer at a point is that point's block.
theorem before3_0 (d) : (dat3 V c).before 0 t d = iblk3 V c 0 t := by apply Dat.before_in_eq_fetched <;> intros <;> rfl
theorem before3_1 (d) : (dat3 V c).before 1 t d = iblk3 V c 1 t := by apply Dat.before_in_eq_fetched <;> intros <;> rfl
theorem before3_2 (d) : (dat3 V c).before 2 t d = iblk3 V c 2 t := by apply Dat.before_in_eq_fetched <;> intros <;> rfl
theorem before3_3 (d) : (dat3 V c).before 3 t d = iblk3 V c 3 t := by apply Dat.before_in_eq_fetched <;> intros <;> rfl
theorem before3_4 (d) : (dat3 V c).before 4 t d = iblk3 V c 4 t := by apply Dat.before_in_eq_fetched <;> intros <;> rfl
theorem before3_5 (d) : (dat3 V c).before 5 t d = iblk3 V c 5 t := by apply Dat.before_in_eq_fetched <;> intros <;> rfl
theorem before3_6 (d) : (dat3 V c).before 6 t d = iblk3 V c 6 t := by apply Dat.before_in_eq_fetched <;> intros <;> rfl
theorem before3_7 (d) : (dat3 V c).before 7 t d = iblk3 V c 7 t := by apply Dat.before_in_eq_fetched <;> intros <;> rfl
theorem before3_8 (d) : (dat3 V c).before 8 t d = iblk3 V c 8 t := by apply Dat.before_in_eq_fetched <;> intros <;> rfl
theorem before3_9 (d) : (dat3 V c).before 9 t d = iblk3 V c 9 t := by apply Dat.before_in_eq_fetched <;> intros <;> rfl
theorem before3_10 (d) : (dat3 V c).before 10 t d = iblk3 V c 10 t := by apply Dat.before_in_eq_fetched <;> intros <;> rfl

end

theorem PhiA3_eq (c : Dev nD) :
    (Pipeline.ΦA spec3 c : sProp 𝕄)
      = iprop(iprop(iprop(∃ d, owns c.tc scM3 fullShare d) ∗ rest3 c) ∗ (∃ r, prngReg c r)) := by
  unfold Pipeline.ΦA; rw [scopedRest3_split]; simp only [scM3, owns_whole]; try rfl

theorem hin3 (c : Dev nD) : (Pipeline.ΦA spec3 c : sProp 𝕄) ⊢ (dat3 V c).Φ 0 := Entails.refl _

-- After the last point the scratch holds the finished sums: forgetting them gives back the invariant the region was entered with.
theorem hout3 (c : Dev nD) : (dat3 V c).Φ (Fin.last cfg3.N) ⊢ (Pipeline.ΦA spec3 c : sProp 𝕄) := by
  rw [PhiA3_eq]
  show iprop((_ ∗ _) ∗ _) ⊢ _
  iintro ⟨⟨HS, HR⟩, Hg⟩
  iframe HR Hg
  iexists _; iexact HS

-- Before position `n` the scratch holds what the point before left; before the first point, anything.
theorem Phi3_open (c : Dev nD) : ∀ (n : ℕ) (h : n ≤ cfg3.N),
    PhiS3 V c n h ⊢ iprop(∃ s, ⌜∀ m hm, n = m + 1 → s = acc3 V c m hm⌝ ∗ (owns c.tc scM3 fullShare s ∗ rest3 c) ∗ (∃ r, prngReg c r))
  | 0, _ => by
    rw [PhiS3, PhiA3_eq]
    iintro ⟨⟨⟨%s, HS⟩, HR⟩, Hg⟩
    iexists s; iframe HS HR Hg
    ipureintro; intro m hm e; cases e
  | n + 1, h => by
    rw [PhiS3]
    iintro H; iexists _; isplitr
    swap; · iexact H
    ipureintro; intro m hm e; cases e; rfl

section
variable {sig' : RefSig} {κ : Kind} {sp : Space} {r : ℕ} {sz off : Fin r → ℕ} {e : EltTy} (v : View sig' κ sp ⟨r, sz⟩ e) (f : v.ty.Contents (Elt F))
  (inb : ∀ a, off a + sz a ≤ sz a)
include inb

-- A rectangle of the buffer's own sizes fits only at zero offsets,
omit v f in
theorem off_zero : off = fun _ => 0 :=
  funext fun a => by have := inb a; omega

-- so a load through it reads the whole contents,
theorem readAt_full : v.readAt (Elt F) (Rect.unit (s := ⟨r, sz⟩) off sz inb).toLoadRect f = v.read (Elt F) f :=
  View.ld_unit_zero (S := ⟨r, sz⟩) (off_zero inb) inb _

-- and a store through it, the last of a list, leaves its payload.
theorem read_writes_full (w : Shape.Idx ⟨r, sz⟩ → Elt F e) (L : List (View.Piece (Elt F) ⟨r, sz⟩ e)) :
    v.read (Elt F) (v.writes (Elt F) f ((⟨Rect.unit (s := ⟨r, sz⟩) off sz inb, w⟩ : View.Piece (Elt F) ⟨r, sz⟩ e) :: L)) = w :=
  (View.read_writes_eq_canon v f _ fun y => ⟨_, List.mem_cons_self, View.mem_set_unit_zero (S := ⟨r, sz⟩) (off_zero inb) inb y⟩).trans
    (View.canon_cons_unit_zero (S := ⟨r, sz⟩) (off_zero inb) inb w L)

end

-- Held at contents that read `X` is held at the canonical contents of `X`.
theorem rep_of_read {sp : Space} {S : Shape} {e : EltTy} (c : Dev nD) (m : Memref sig .tc sp S e) {f : m.view.ty.Contents (Elt F)}
    {X : S.Idx → Elt F e} (h : m.view.read (Elt F) f = X) :
    (m.view.loc c.tc ↦[m.view.set]{fullShare} f : sProp 𝕄) ⊢ m.view.loc c.tc ↦[m.view.set]{fullShare} m.view.rep X :=
  h ▸ (owns_intro c.tc m fullShare f).trans (rep_of_owns c.tc m fullShare _)

section
variable (c : Dev nD) (i : grid3.Coords) (arg1 arg2 : Memref sig .tc .vmem S2000x64 .f32) (arg3 : Memref sig .tc .vmem S2000x1 .f32) (arg4 arg5 : Memref sig .tc .vmem S64x64 .f32) (arg6 : Memref sig .tc .vmem S1x64 .f32) (arg7 : Memref sig .tc .vmem S2000x1 .i32) (arg8 : Memref sig .tc .vmem S64x32 .f32) (arg9 : Memref sig .tc .vmem S1x32 .f32) (arg10 : Memref sig .tc .vmem S32x1 .f32) (arg11 : Memref sig .tc .vmem S1x1 .f32)
  (x0 x1 : Vec F S2000x64 .f32) (x2 : Vec F S2000x1 .f32) (x3 x4 : Vec F S64x64 .f32) (x5 : Vec F S1x64 .f32) (x6 : Vec F S2000x1 .i32) (x7 : Vec F S64x32 .f32) (x8 : Vec F S1x32 .f32) (x9 : Vec F S32x1 .f32) (x10 : Vec F S1x1 .f32)

-- The eleven input buffers at `x0 … x10`, beside `P`.
def held3 (P : sProp 𝕄) : sProp 𝕄 :=
  iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ P)

-- What a point leaves in the scratch that held `s`: this tile's contribution added, to zero at the first point.
def s3 (s : Vec F S256x64 .f32) : Vec F S256x64 .f32 :=
  k3_pay1 (k3_pay5 x0 x1 x2 x3 x4 x5 x6 (if k3_cond1 i = 1#1 then k3_pay3 else s))

-- What it leaves in the output buffer that held `o`: the head of the sums at the last point, zeros at the first, `o` between.
def o3 (o : Vec F S256x1 .f32) (s : Vec F S256x64 .f32) : Vec F S256x1 .f32 :=
  if k3_cond2 i = 1#1 then k3_pay2 (s3 i x0 x1 x2 x3 x4 x5 x6 s) x7 x8 x9 x10 else if k3_cond1 i = 1#1 then k3_pay4 else o

-- The body at any point: whichever of the two conditions hold there, it leaves the scratch at `s3` and the output buffer at `o3`.
theorem sound_kernel3 (arg12 : Memref sig .tc .vmem S256x1 .f32) (arg13 : Memref sig .tc .vmem S256x64 .f32) (E : Set ℕ) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole)
    (o : Vec F S256x1 .f32) (s : Vec F S256x64 .f32) (K : PUnit → sProp 𝕄) :
    iprop(held3 c arg1 arg2 arg3 arg4 arg5 arg6 arg7 arg8 arg9 arg10 arg11 x0 x1 x2 x3 x4 x5 x6 x7 x8 x9 x10 iprop(owns c.tc arg12 fullShare o ∗ owns c.tc arg13 fullShare s)
        ∗ (held3 c arg1 arg2 arg3 arg4 arg5 arg6 arg7 arg8 arg9 arg10 arg11 x0 x1 x2 x3 x4 x5 x6 x7 x8 x9 x10 iprop(owns c.tc arg12 fullShare (o3 i x0 x1 x2 x3 x4 x5 x6 x7 x8 x9 x10 o s) ∗ owns c.tc arg13 fullShare (s3 i x0 x1 x2 x3 x4 x5 x6 s)) -∗ K ⟨⟩))
      ⊢ wp frame (wpE (defs₀ (F := F)) Variants.none c none) E (cc3__cheb_pool_kernel i arg1 harg1 arg2 harg2 arg3 harg3 arg4 harg4 arg5 harg5 arg6 harg6 arg7 harg7 arg8 harg8 arg9 harg9 arg10 harg10 arg11 harg11 arg12 harg12 arg13 harg13) K := by
  simp only [cc3__cheb_pool_kernel_eq_skeleton, held3, owns_eq_rep]; unfold cc3__cheb_pool_kernel_skel
  iintro ⟨⟨H0, H1, H2, H3, H4, H5, H6, H7, H8, H9, H10, H11, HS⟩, Hk⟩
  sl_exec
  sl_step
  iapply Hk
  iframe
  isplitl [H11]
  · iapply (rep_of_read c arg12 ?_)
    on_goal 2 => iexact H11
    unfold o3 s3 sound_kernel3.sl.v41 sound_kernel3.sl.HS_1 sound_kernel3.sl.r sound_kernel3.sl.v33
    by_cases h1 : k3_cond1 i = 1#1 <;> by_cases h2 : k3_cond2 i = 1#1 <;>
      simp only [h1, h2, eq_self, ↓reduceIte, ↓reduceDIte, readAt_full, read_writes_full, View.read_rep, View.readCov_cons_toLoadRect]
  · iapply (rep_of_read c arg13 ?_)
    on_goal 2 => iexact HS
    unfold s3 sound_kernel3.sl.HS_1 sound_kernel3.sl.r sound_kernel3.sl.v33
    by_cases h1 : k3_cond1 i = 1#1 <;>
      simp only [h1, eq_self, ↓reduceIte, ↓reduceDIte, readAt_full, read_writes_full, View.read_rep]

end

section
variable (c : Dev nD) (t : Fin cfg3.N) (s : Vec F S256x64 .f32) (hs : ∀ m hm, t.val = m + 1 → s = acc3 V c m hm)
include hs

-- The sums after a point, from what the scratch held before it.
theorem acc3_step :
    s3 (grid3.coords t) (iblk3 V c 0 t) (iblk3 V c 1 t) (iblk3 V c 2 t) (iblk3 V c 3 t) (iblk3 V c 4 t) (iblk3 V c 5 t) (iblk3 V c 6 t) s = acc3 V c t.val t.isLt := by
  obtain ⟨n, hn⟩ := t
  unfold s3
  cases n with
  | zero => rw [if_pos ((pts3 _).1.mpr rfl)]; rfl
  | succ n => rw [if_neg fun h => Nat.succ_ne_zero n ((pts3 _).1.mp h), hs n _ rfl]; rfl

-- The output buffer after a point is as the proof data say: zeros after the first, the head after the last, as found between.
theorem leaves3_11 (d) :
    owns c.tc (st3_11 t) fullShare (o3 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) ((dat3 V c).before 11 t d) s) ⊢ (dat3 V c).leavesExact 11 t := by
  unfold o3; rw [acc3_step V c t s hs]
  obtain ⟨h1, h2, hi⟩ := pts3 t
  by_cases h49 : t.val = 49
  · rw [if_pos (h2.mpr h49), Dat.leavesExact, hi, decide_eq_false fun h => h.2 h49, after3_11, out3, if_pos h49]
  · rw [if_neg fun h => h49 (h2.mp h)]
    by_cases h0 : t.val = 0
    · rw [if_pos (h1.mpr h0), Dat.leavesExact, hi, decide_eq_false fun h => h.1 h0, after3_11, out3, if_neg h49]
    · rw [if_neg fun h => h0 (h1.mp h), Dat.leavesExact_idle _ 11 t (hi.trans (decide_eq_true ⟨h0, h49⟩))
        (Bool.eq_false_iff.2 fun hf => by have := (flush3_11 t).mp hf; have := t.isLt.trans_eq N_3; omega)]
      iintro H; iexists d; iexact H

end

theorem body_obligation3 (c : Dev nD) : BodyObligation (dat3 (F := F) V c) (defs₀ (F := F)) Variants.none () Set.univ := fun t => by
  rw [bigSep_W3, bigSep_W3]
  simp only [before3_0 V, before3_1 V, before3_2 V, before3_3 V, before3_4 V, before3_5 V, before3_6 V, before3_7 V, before3_8 V, before3_9 V, before3_10 V]
  show iprop(PhiS3 V c t.val _ ∗ _) ⊢ wp _ _ _ _ (fun _ => iprop(((_ ∗ _) ∗ _) ∗ (dat3 V c).owesAt () t.castSucc ∗ held3 c (st3_0 t) (st3_1 t) (st3_2 t) (st3_3 t) (st3_4 t) (st3_5 t) (st3_6 t) (st3_7 t) (st3_8 t) (st3_9 t) (st3_10 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) ((dat3 V c).leavesExact 11 t)))
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HI := (Phi3_open V c _ _) $$ HΦ
  icases HI with ⟨%s, %hs, ⟨HS, HR⟩, Hg⟩
  iapply (sound_kernel3 c (grid3.coords t) (st3_0 t) (st3_1 t) (st3_2 t) (st3_3 t) (st3_4 t) (st3_5 t) (st3_6 t) (st3_7 t) (st3_8 t) (st3_9 t) (st3_10 t) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (st3_11 t) scM3 Set.univ _ _ _ _ _ _ _ _ _ _ _ _ _ ((dat3 V c).before 11 t d11) s _)
  unfold held3
  rw [acc3_step V c t s hs]
  iframe
  iintro ⟨H0, H1, H2, H3, H4, H5, H6, H7, H8, H9, H10, H11, HS⟩
  iframe
  iapply (leaves3_11 V c t s hs d11); iexact H11

end Cert.KernelIdeal.Hand

end
-- ==== Proof.KI.Fold.lean ====
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import proofs.«411333_j58291296141746_2_alg».proof.Proof.KI.Reg0
import proofs.«411333_j58291296141746_2_alg».proof.Proof.KI.Reg1
import proofs.«411333_j58291296141746_2_alg».proof.Proof.KI.Reg2
import proofs.«411333_j58291296141746_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- `{y}` lies within the buffers of any list of references that holds `y`. -/
theorem one_sub {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

abbrev hostOps0_W : List (Ref sig .tc) :=
  [ main_v0, main_v1, main_v2, main_v3, main_v4, main_cst, main_cst_0 ]
abbrev hostOps0_1_W : List (Ref sig .tc) :=
  [ main_call0_v0, main_call0_v1, main_v5 ]
abbrev hostOps0_2_W : List (Ref sig .tc) :=
  [ main_v6, main_cst_1, main_v7, main_v8, main_v9, main_cst_2, main_v10, main_v11, main_cst_3, main_v12, main_v13, main_cst_4 ]
abbrev hostOps0_3_W : List (Ref sig .tc) :=
  [ main_call1_v0, main_call1_v1, main_v14 ]
abbrev hostOps0_4_W : List (Ref sig .tc) :=
  [ main_v15, main_cst_5, main_v16, main_v17, main_cst_6 ]
abbrev hostOps0_5_W : List (Ref sig .tc) :=
  [ main_call2_v0, main_call2_v1, main_v18 ]
abbrev hostOps0_6_W : List (Ref sig .tc) :=
  [ main_cst_7, main_v19, main_v20, main_c, main_v21, main_v22, main_c_8, main_v23, main_v24, main_v25, main_v26, main_v27, main_v28, main_v29,
    main_c_9, main_v30, main_v31, main_c_10, main_v32, main_v33, main_v34, main_v35, main_v36, main_v37,
    main_c_11, main_v38, main_v39, main_c_12, main_v40, main_v41, main_v42, main_v43, main_v44,
    main_c_13, main_v45, main_v46, main_c_14, main_v47, main_v48, main_v49, main_v50, main_v51, main_v52,
    main_c_15, main_v53, main_v54, main_c_16, main_v55, main_v56, main_v57, main_v58, main_v59,
    main_cst_17, main_v60, main_v61, main_v62, main_v63, main_v64,
    main_c_18, main_v65, main_v66, main_c_19, main_v67, main_v68, main_v69, main_v70, main_v71, main_v72, main_v73,
    main_cst_20, main_v74, main_v75, main_v76, main_v77, main_v78, main_v79, main_v80, main_v81 ]
abbrev hostOps1_W : List (Ref sig .tc) :=
  [ main_v83, main_c_21, main_v84, main_v85, main_c_22, main_v86, main_v87, main_v88, main_v89, main_v90, main_v91, main_v92,
    main_cst_23, main_v93, main_v94, main_v95, main_v96, main_v97, main_v98, main_v99, main_v100 ]
abbrev hostOps2_W : List (Ref sig .tc) :=
  [ main_v102, main_c_24, main_v103, main_v104, main_c_25, main_v105, main_v106, main_v107, main_v108, main_v109, main_v110, main_v111,
    main_cst_26, main_v112, main_v113, main_v114, main_v115, main_v116, main_v117, main_v118, main_v119 ]
abbrev hostOps3_W : List (Ref sig .tc) :=
  [ main_v121, main_c_27, main_v122, main_v123, main_c_28, main_v124, main_v125, main_v126, main_v127, main_v128, main_v129, main_v130,
    main_cst_29, main_v131, main_v132, main_v133, main_v134, main_v135, main_v136, main_v137, main_v138, main_v139, main_v140 ]

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec0 c (W7 m ρ c) fun w => (dat0 (V7 m ρ) c).arrAt w cfg0.N
abbrev W9 : Dev nD → Valuation τ sig (Elt F) := fun c => StableHlo.after hostOps1 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec1 c (W9 m ρ c) fun w => (dat1 (V9 m ρ) c).arrAt w cfg1.N
abbrev W11 : Dev nD → Valuation τ sig (Elt F) := fun c => StableHlo.after hostOps2 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec2 c (W11 m ρ c) fun w => (dat2 (V11 m ρ) c).arrAt w cfg2.N
abbrev W13 : Dev nD → Valuation τ sig (Elt F) := fun c => StableHlo.after hostOps3 (W12 m ρ c)
abbrev V13 : (c : Dev nD) → (b : Ref sig .tc) → Buf (Elt F) ((c : Thread nD τ).loc b) := fun c b => W13 m ρ c b
def W14 (c : Dev nD) : Valuation τ sig (Elt F) :=
  Pipeline.withArrays spec3 c (W13 m ρ c) fun w => (dat3 (V13 m ρ) c).arrAt w cfg3.N

theorem W8_arr (c : Dev nD) (w : Fin cfg0.W) :
    W8 m ρ c (Proc.devRef .tc (Pipeline.arrRef spec0 w)) = (dat0 (V7 m ρ) c).arrAt w cfg0.N :=
  Pipeline.withArrays_arr spec0 launch0.win.arr_inj c _ _ w
theorem W10_arr (c : Dev nD) (w : Fin cfg1.W) :
    W10 m ρ c (Proc.devRef .tc (Pipeline.arrRef spec1 w)) = (dat1 (V9 m ρ) c).arrAt w cfg1.N :=
  Pipeline.withArrays_arr spec1 launch1.win.arr_inj c _ _ w
theorem W12_arr (c : Dev nD) (w : Fin cfg2.W) :
    W12 m ρ c (Proc.devRef .tc (Pipeline.arrRef spec2 w)) = (dat2 (V11 m ρ) c).arrAt w cfg2.N :=
  Pipeline.withArrays_arr spec2 launch2.win.arr_inj c _ _ w
theorem W14_arr (c : Dev nD) (w : Fin cfg3.W) :
    W14 m ρ c (Proc.devRef .tc (Pipeline.arrRef spec3 w)) = (dat3 (V13 m ρ) c).arrAt w cfg3.N :=
  Pipeline.withArrays_arr spec3 launch3.win.arr_inj c _ _ w

theorem W1_of (c : Dev nD) (r : Ref sig .tc) (h : r ∉ hostOps0_W) :
    W1 m ρ c (Proc.devRef .tc r) = W0 m ρ c (Proc.devRef .tc r) :=
  StableHlo.after_of_writes_sub hostOps0 _ (by repeat' first | constructor | exact one_sub (by decide)) h
theorem W2_of (c : Dev nD) (r : Ref sig .tc) (h : r ∉ hostOps0_1_W) :
    W2 m ρ c (Proc.devRef .tc r) = W1 m ρ c (Proc.devRef .tc r) :=
  StableHlo.after_of_writes_sub hostOps0_1 _ (by repeat' first | constructor | exact one_sub (by decide)) h
theorem W3_of (c : Dev nD) (r : Ref sig .tc) (h : r ∉ hostOps0_2_W) :
    W3 m ρ c (Proc.devRef .tc r) = W2 m ρ c (Proc.devRef .tc r) :=
  StableHlo.after_of_writes_sub hostOps0_2 _ (by repeat' first | constructor | exact one_sub (by decide)) h
theorem W4_of (c : Dev nD) (r : Ref sig .tc) (h : r ∉ hostOps0_3_W) :
    W4 m ρ c (Proc.devRef .tc r) = W3 m ρ c (Proc.devRef .tc r) :=
  StableHlo.after_of_writes_sub hostOps0_3 _ (by repeat' first | constructor | exact one_sub (by decide)) h
theorem W5_of (c : Dev nD) (r : Ref sig .tc) (h : r ∉ hostOps0_4_W) :
    W5 m ρ c (Proc.devRef .tc r) = W4 m ρ c (Proc.devRef .tc r) :=
  StableHlo.after_of_writes_sub hostOps0_4 _ (by repeat' first | constructor | exact one_sub (by decide)) h
theorem W6_of (c : Dev nD) (r : Ref sig .tc) (h : r ∉ hostOps0_5_W) :
    W6 m ρ c (Proc.devRef .tc r) = W5 m ρ c (Proc.devRef .tc r) :=
  StableHlo.after_of_writes_sub hostOps0_5 _ (by repeat' first | constructor | exact one_sub (by decide)) h
theorem W7_of (c : Dev nD) (r : Ref sig .tc) (h : r ∉ hostOps0_6_W) :
    W7 m ρ c (Proc.devRef .tc r) = W6 m ρ c (Proc.devRef .tc r) :=
  StableHlo.after_of_writes_sub hostOps0_6 _ (by repeat' first | constructor | exact one_sub (by decide)) h
theorem W9_of (c : Dev nD) (r : Ref sig .tc) (h : r ∉ hostOps1_W) :
    W9 m ρ c (Proc.devRef .tc r) = W8 m ρ c (Proc.devRef .tc r) :=
  StableHlo.after_of_writes_sub hostOps1 _ (by repeat' first | constructor | exact one_sub (by decide)) h
theorem W11_of (c : Dev nD) (r : Ref sig .tc) (h : r ∉ hostOps2_W) :
    W11 m ρ c (Proc.devRef .tc r) = W10 m ρ c (Proc.devRef .tc r) :=
  StableHlo.after_of_writes_sub hostOps2 _ (by repeat' first | constructor | exact one_sub (by decide)) h
theorem W13_of (c : Dev nD) (r : Ref sig .tc) (h : r ∉ hostOps3_W) :
    W13 m ρ c (Proc.devRef .tc r) = W12 m ρ c (Proc.devRef .tc r) :=
  StableHlo.after_of_writes_sub hostOps3 _ (by repeat' first | constructor | exact one_sub (by decide)) h

/-- Putting a region's arrays at their final contents changes its one output array only: an input array ends as it began. -/
theorem keep_of {cfg : Cfg sig Λ₀} {c : Dev nD} (dat : Dat τ (Elt F) Unit ℕ (UR sig nD τ) ℕ cfg c) (W : Valuation τ sig (Elt F))
    (hinj : Function.Injective (Pipeline.arrRef cfg.spec)) (hA : ∀ w, dat.A w = W (Proc.devRef .tc (Pipeline.arrRef cfg.spec w)))
    (o : Fin cfg.W) (hin : ∀ w, w ≠ o → (cfg.win w).isOut = false) (r : Ref sig .tc) (h : Pipeline.arrRef cfg.spec o ≠ r) :
    Pipeline.withArrays cfg.spec c W (fun w => dat.arrAt w cfg.N) (Proc.devRef .tc r) = W (Proc.devRef .tc r) := by
  by_cases hw : ∃ w, Pipeline.arrRef cfg.spec w = r
  · obtain ⟨w, rfl⟩ := hw
    rw [Pipeline.withArrays_arr _ hinj, dat.arrAt_in w (hin w fun e => h (e ▸ rfl)), hA]
  · exact Pipeline.withArrays_of_ne _ c _ _ r fun w e => hw ⟨w, e⟩

theorem W8_keep (c : Dev nD) (r : Ref sig .tc) (h : Pipeline.arrRef spec0 6 ≠ r) :
    W8 m ρ c (Proc.devRef .tc r) = W7 m ρ c (Proc.devRef .tc r) :=
  keep_of (dat0 (V7 m ρ) c) _ launch0.win.arr_inj (fun _ => rfl) 6 (by decide) r h
theorem W10_keep (c : Dev nD) (r : Ref sig .tc) (h : Pipeline.arrRef spec1 6 ≠ r) :
    W10 m ρ c (Proc.devRef .tc r) = W9 m ρ c (Proc.devRef .tc r) :=
  keep_of (dat1 (V9 m ρ) c) _ launch1.win.arr_inj (fun _ => rfl) 6 (by decide) r h
theorem W12_keep (c : Dev nD) (r : Ref sig .tc) (h : Pipeline.arrRef spec2 6 ≠ r) :
    W12 m ρ c (Proc.devRef .tc r) = W11 m ρ c (Proc.devRef .tc r) :=
  keep_of (dat2 (V11 m ρ) c) _ launch2.win.arr_inj (fun _ => rfl) 6 (by decide) r h
theorem W14_keep (c : Dev nD) (r : Ref sig .tc) (h : Pipeline.arrRef spec3 11 ≠ r) :
    W14 m ρ c (Proc.devRef .tc r) = W13 m ρ c (Proc.devRef .tc r) :=
  keep_of (dat3 (V13 m ρ) c) _ launch3.win.arr_inj (fun _ => rfl) 11 (by decide) r h

abbrev args : List (Ref sig .tc) :=
  [ main_arg0, main_arg1, main_arg2, main_arg3, main_arg4, main_arg5, main_arg6, main_arg7,
    main_arg8, main_arg9, main_arg10, main_arg11, main_arg12, main_arg13, main_arg14, main_arg15 ]

/-- No host operation writes an argument, and no region's output array is one. -/
theorem args_free : ∀ r ∈ args, r ∉ hostOps0_W ∧ r ∉ hostOps0_1_W ∧ r ∉ hostOps0_2_W ∧ r ∉ hostOps0_3_W ∧ r ∉ hostOps0_4_W
    ∧ r ∉ hostOps0_5_W ∧ r ∉ hostOps0_6_W ∧ r ∉ hostOps1_W ∧ r ∉ hostOps2_W ∧ r ∉ hostOps3_W
    ∧ Pipeline.arrRef spec0 6 ≠ r ∧ Pipeline.arrRef spec1 6 ≠ r ∧ Pipeline.arrRef spec2 6 ≠ r ∧ Pipeline.arrRef spec3 11 ≠ r := by
  decide

/-- So an argument holds at the last boundary what it held at launch: the fourteen steps undone one by one. -/
theorem W14_arg (c : Dev nD) (r : Ref sig .tc) (hr : r ∈ args) : W14 m ρ c (Proc.devRef .tc r) = m ((c : Thread nD τ).loc r) := by
  obtain ⟨a0, a1, a2, a3, a4, a5, a6, b1, b2, b3, h0, h1, h2, h3⟩ := args_free r hr
  rw [W14_keep m ρ c r h3, W13_of m ρ c r b3, W12_keep m ρ c r h2, W11_of m ρ c r b2, W10_keep m ρ c r h1, W9_of m ρ c r b1,
    W8_keep m ρ c r h0, W7_of m ρ c r a6, W6_of m ρ c r a5, W5_of m ρ c r a4, W4_of m ρ c r a3, W3_of m ρ c r a2,
    W2_of m ρ c r a1, W1_of m ρ c r a0]

abbrev adm : (p : Fin 4) → (pcfgs (F := F) p).Adm := fun p => (cfgs p).toPCfg_adm

/-- The four pipelines' proof data, each at its region's entry contents. -/
def pdats : (p : Fin 4) → (c : Dev nD) → Dat τ (Elt F) Unit ℕ (UR sig nD τ) ℕ (Pipeline.pin (pcfgs (F := F)) adm p) c
  | ⟨0, _⟩ => dat0 (V7 m ρ)
  | ⟨1, _⟩ => dat1 (V9 m ρ)
  | ⟨2, _⟩ => dat2 (V11 m ρ)
  | ⟨3, _⟩ => dat3 (V13 m ρ)

end Cert.KernelIdeal.Hand

end
-- ==== Proof.KI.Segs.lean ====
import proofs.«411333_j58291296141746_2_alg».proof.Proof.KI.Fold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0

/-- The rest of every thread state: the generator register at some state, and nothing owed. -/
abbrev R (c : Dev nD) : sProp 𝕄 := iprop((∃ r, prngReg c r) ∗ ∃ W, owes (c : Thread nD τ) (0 : CellTallies nD τ sig Unit) W)

/-- A host stretch entered at the contents `W`. -/
abbrev hseg (ops : List (HloOp τ sig (Elt F))) (hsub : ops.Forall fun op => op.bufs ⊆ StableHlo.tcRefs τ sig)
    (W : Dev nD → Valuation τ sig (Elt F)) (hfresh : ops.Forall fun op => op.fresh = ∅ := by repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The thread state at the contents `W`. -/
abbrev Tat (W : Dev nD → Valuation τ sig (Elt F)) (c : Dev nD) : sProp 𝕄 :=
  iprop(StableHlo.held (c : Thread nD τ) (Pipeline.ucRefs τ sig) (W c) ∗ R c)

abbrev Tₙ (c : Dev nD) : sProp 𝕄 := iprop(StableHlo.held (c : Thread nD τ) (Pipeline.ucRefs τ sig) (W14 m ρ c) ∗ ∃ r, prngReg c r)

/-- To owe nothing is to owe the proof data's tallies wherever they are zero, -/
theorem owes_in {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; intro x _; exact Or.inl (hr ▸ Set.mem_univ x)
  iexact HO
/-- and conversely. -/
theorem owes_out {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

/-- The contents after pipeline `p`'s region entered at `Wi`: its arrays at their final contents, the other buffers unchanged. -/
abbrev Wout (p : Fin 4) (Wi : Dev nD → Valuation τ sig (Elt F)) (c : Dev nD) : Valuation τ sig (Elt F) :=
  Pipeline.withArrays (cfgs p).spec c (Wi c) fun w => (pdats m ρ p c).arrAt w (cfgs p).N

set_option backward.isDefEq.respectTransparency.types false in
/-- Pipeline `p`'s region entered at `Wi`: its arrays leave the unscoped buffers at entry and rejoin them at exit; nothing is owed. -/
def reg (p : Fin 4) (lf : Pipeline.LaunchFacts (nD := nD) (τ := τ) cfgs p) (Wi : Dev nD → Valuation τ sig (Elt F))
    (hb : ∀ c, BodyObligation (pdats m ρ p c) (defs₀ (F := F)) 𝒱₀ () Set.univ)
    (hq : ∀ c w, (pdats m ρ p c).q w = fullShare := by intros; rfl)
    (hA : ∀ c w, (pdats m ρ p c).A w = Wi c (Pipeline.arrRef (cfgs p).spec w) := by intros; rfl)
    (h0 : ∀ c t, (pdats m ρ p c).owed t = 0 := by intros; rfl) (hr : ∀ c, (pdats m ρ p c).recorded 0 = Set.univ := by intros; rfl)
    (hfst : ∀ c, (Pipeline.ΦA (cfgs p).spec c : sProp 𝕄) ⊢ (pdats m ρ p c).Φ 0 := by exact fun _ => .rfl)
    (hlst : ∀ c, (pdats m ρ p c).Φ (Fin.last _) ⊢ (Pipeline.ΦA (cfgs p).spec c : sProp 𝕄) := by exact fun _ => .rfl) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre := Tat Wi
  post := Tat (Wout m ρ p Wi)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hbufs, Hreg, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · iapply (owes_in (pdats m ρ p c) 0 (h0 c 0) (hr c)); iexact Howes
    isplitl [Hreg]; · iexact Hreg
    iexact Hrest
  hin c := by
    refine BIBase.Entails.trans ?_ (hfst c)
    unfold Pipeline.ΦA
    iintro ⟨Hreg, -, Hsc⟩
    isplitl [Hsc]; · iexact Hsc
    iexact Hreg
  hout c := by
    rw [Pipeline.ownSems0_none]
    refine (hlst c).trans ?_
    unfold Pipeline.ΦA
    iintro ⟨Hsc, Hreg⟩
    isplitl [Hreg]; · iexact Hreg
    isplitr; · iempintro
    iexact Hsc
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => Wi c b) (fun b => Wout m ρ p Wi c b)
      ((pdats m ρ p c).arrAt · (cfgs p).N) (fun w => (Pipeline.withArrays_arr (cfgs p).spec lf.win.arr_inj c (Wi c) (fun w => (pdats m ρ p c).arrAt w (cfgs p).N) w).symm)
      fun b hb => Pipeline.withArrays_of_ne (cfgs p).spec c (Wi c) _ b fun w e => hb (Finset.mem_image.mpr ⟨w, Finset.mem_univ _, e⟩)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    iapply (owes_out (pdats m ρ p c) (Fin.last _) (h0 c _)); iexact Howes

/-- The program's fourteen items, each entered at the contents the one before it leaves. -/
abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .host (hseg hostOps0_4 hostOps0_4_sub (W4 m ρ)),
    .host (hseg hostOps0_5 hostOps0_5_sub (W5 m ρ)),
    .host (hseg hostOps0_6 hostOps0_6_sub (W6 m ρ)),
    .region (reg m ρ 0 launch0 (W7 m ρ) (body_obligation0 (V7 m ρ))),
    .host (hseg hostOps1 hostOps1_sub (W8 m ρ)),
    .region (reg m ρ 1 launch1 (W9 m ρ) (body_obligation1 (V9 m ρ))),
    .host (hseg hostOps2 hostOps2_sub (W10 m ρ)),
    .region (reg m ρ 2 launch2 (W11 m ρ) (body_obligation2 (V11 m ρ))),
    .host (hseg hostOps3 hostOps3_sub (W12 m ρ)),
    .region (reg m ρ 3 launch3 (W13 m ρ) (body_obligation3 (V13 m ρ)) (hfst := hin3 (V13 m ρ)) (hlst := hout3 (V13 m ρ))) ]

theorem main_run (c : Dev nD) : main (F := F) c = Pipeline.Seg.run (segs m ρ) := (main_chain c).trans (by chain_rfl)

set_option backward.isDefEq.respectTransparency.types false in
/-- The program terminates, and whatever follows from the final memory holding every unscoped buffer at `W14` holds. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W14 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Tat (W0 m ρ)) (Tₙ := Tₙ m ρ)
    (hch := by repeat' first | constructor | exact fun _ => .rfl | exact fun _ => sep_assoc')
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W14 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W14 m ρ c) s')
      isplitl [Hbufs] <;> iassumption)
    (hQ := hQ)

/-- At the end the output array holds the last region's final contents, and each argument what it held at launch. -/
theorem run_full : θ_run defs (onTc (τ := τ) (main (F := F))) ⟨m, fun _ => 0, ρ⟩ (fun r => ∀ c : Dev nD,
      r.2.mem ((c.tc : Thread nD τ).loc main_v141) = (dat3 (V13 m ρ) c).arrAt 11 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_of m ρ fun s h c => ⟨(h c _ (mem_uc main_v141 (by decide))).trans (W14_arr m ρ c 11),
    (List.forall_iff_forall_mem (l := args) (p := fun r => s.mem ((c.tc : Thread nD τ).loc r) = m ((c.tc : Thread nD τ).loc r))).mpr fun r hr =>
      (h c _ (mem_uc r ((by decide : ∀ r ∈ args, ¬ (Proc.devRef .tc r : DevRef τ sig).isScoped) r hr))).trans (W14_arg m ρ c r hr)⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_full m ρ)

end Cert.KernelIdeal.Hand

end
-- ==== Proof.LibRows.lean ====
/- Matrices of extended reals, and the operations of a dense layer read at an index: the product into a zero accumulator, a column or a row laid across a matrix, the rectifier. -/
import Idealize.ShloMosaic.Lib.ValueIdx
import Idealize.ShloMosaic.Lib.Pipeline.Value
import Idealize.ShloMosaic.PureOps.Ideal.Laws
import Idealize.ShloMosaic.Lib.StackMember

noncomputable section

namespace Cert.Rows

open Idealize.ShloMosaic Idealize.ShloMosaic.ValueIdx
open scoped BigOperators

abbrev Arr2 (R C : Nat) := (⟨2, ![R, C]⟩ : Shape).Idx → EReal

abbrev z32 : EReal := Ideal.ofBits .f32 0x00000000#32

theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  have h := StackMember.dotGeneral_plain_apply (m := m) (n := n) prec A B a b
  rw [← h]
  exact congrFun (matmul_zero_eq_dotGeneral (DotDims.plain m k n) prec A B) (ix2 a b)

theorem col_bcast_apply {α : Type} {R C : Nat} (v : (⟨2, ![R, 1]⟩ : Shape).Idx → α)
    (h : (⟨2, ![R, 1]⟩ : Shape).Broadcasts ⟨2, ![R, C]⟩) (p : Fin R) (q : Fin C) :
    broadcastTo ⟨2, ![R, C]⟩ v h (ix2 p q) = v (ix2 p 0) := by
  refine broadcastTo_apply v h (ix2 p q) (ix2 p 0) (fun a => ?_)
  match a with
  | ⟨0, _⟩ =>
    show p.val = if R = 1 then 0 else p.val
    have := p.isLt
    split_ifs with hR <;> omega
  | ⟨1, _⟩ => simp

theorem row_bcast_apply {α : Type} {R C : Nat} (v : (⟨2, ![1, C]⟩ : Shape).Idx → α)
    (h : (⟨2, ![1, C]⟩ : Shape).Broadcasts ⟨2, ![R, C]⟩) (p : Fin R) (q : Fin C) :
    broadcastTo ⟨2, ![R, C]⟩ v h (ix2 p q) = v (ix2 0 q) := by
  refine broadcastTo_apply v h (ix2 p q) (ix2 0 q) (fun a => ?_)
  match a with
  | ⟨0, _⟩ => simp
  | ⟨1, _⟩ =>
    show q.val = if C = 1 then 0 else q.val
    have := q.isLt
    split_ifs with hC <;> omega

theorem bias_rows_apply {R C : Nat} (v : Arr2 1 C) (h1 : (⟨2, ![1, C]⟩ : Shape).ShapeCasts ⟨2, ![1, C]⟩)
    (h2 : (⟨2, ![1, C]⟩ : Shape).Broadcasts ⟨2, ![R, C]⟩) (p : Fin R) (q : Fin C) :
    broadcastTo ⟨2, ![R, C]⟩ (shapeCast ⟨2, ![1, C]⟩ v h1) h2 (ix2 p q) = v (ix2 0 q) := by
  rw [shapeCast_self]
  exact row_bcast_apply v h2 p q

theorem kernel_relu_apply {t : Shape} (Y : FVec Ideal t .f32) (i : t.Idx) :
    maximumf Y (broadcast t (Scalar.ofBits (F := Ideal) .f32 0x00000000#32)) i = max (Y i) z32 := rfl

end Cert.Rows

end
-- ==== Proof.Spec.lean ====
/- What the network computes entry by entry on extended reals: a layer is the rectified v·W₀ + (s + d∘v)·W₁ + b row by row; the head sums rows graph by graph and applies two dense layers. -/
import proofs.«411333_j58291296141746_2_alg».proof.Proof.LibRows

noncomputable section

namespace Cert.Spec

open Cert.Rows Idealize.ShloMosaic Idealize.ShloMosaic.ValueIdx
open scoped BigOperators

abbrev Col (N : Nat) := (⟨2, ![N, 1]⟩ : Shape).Idx → BitVec 32

def layerAt {R K C : Nat} (v s : Arr2 R K) (dg : Arr2 R 1) (W0 W1 : Arr2 K C) (b : Arr2 1 C) (r : Fin R) (q : Fin C) : EReal :=
  max (((∑ k : Fin K, v (ix2 r k) * W0 (ix2 k q))
        + (∑ k : Fin K, (s (ix2 r k) + dg (ix2 r 0) * v (ix2 r k)) * W1 (ix2 k q))) + b (ix2 0 q)) z32

def layer {R K C : Nat} (v s : Arr2 R K) (dg : Arr2 R 1) (W0 W1 : Arr2 K C) (b : Arr2 1 C) : Arr2 R C :=
  fun i => layerAt v s dg W0 W1 b (i 0) (i 1)

def poolAt {N H : Nat} (y : Arr2 N H) (bt : Col N) (g : Nat) (h : Fin H) : EReal :=
  ∑ n : Fin N, if bt (ix2 n 0) = BitVec.ofNat 32 g then y (ix2 n h) else 0

def headAt {N H M : Nat} (y : Arr2 N H) (bt : Col N) (A : Arr2 H M) (a : Arr2 1 M) (B : Arr2 M 1) (β : Arr2 1 1) (g : Nat) : EReal :=
  (∑ j : Fin M, max ((∑ h : Fin H, poolAt y bt g h * A (ix2 h j)) + a (ix2 0 j)) z32 * B (ix2 j 0)) + β (ix2 0 0)

def head {N H M G : Nat} (y : Arr2 N H) (bt : Col N) (A : Arr2 H M) (a : Arr2 1 M) (B : Arr2 M 1) (β : Arr2 1 1) : Arr2 G 1 :=
  fun i => headAt y bt A a B β (i 0).val

theorem head_apply {N H M G : Nat} (y : Arr2 N H) (bt : Col N) (A : Arr2 H M) (a : Arr2 1 M) (B : Arr2 M 1) (β : Arr2 1 1)
    (g : Fin G) : head (G := G) y bt A a B β (ix2 g 0) = headAt y bt A a B β g.val := rfl

end Cert.Spec

end
-- ==== Proof.KI.Val0.lean ====
/- A row block of a layer is the layer of the same row block of its three row operands, and the ten blocks tile the rows: the region's result array is the layer of the arrays it was entered with. -/
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«411333_j58291296141746_2_alg».proof.Proof.KI.Reg0
import proofs.«411333_j58291296141746_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem zero_offs0 : (![0, 0] : Fin 2 → Nat) = fun _ => 0 := funext fun a => by fin_cases a <;> rfl

theorem dot0_plain : dot_S10000x32_S32x64_S10000x64_1_0_0_1_n_n = DotDims.plain 10000 32 64 := rfl

theorem pay0_apply (x0 x1 : Vec Ideal S10000x32 .f32) (x2 : Vec Ideal S10000x1 .f32) (x3 x4 : Vec Ideal S32x64 .f32)
    (x5 : Vec Ideal S1x64 .f32) (p : Fin 10000) (q : Fin 64) :
    k0_pay1 x0 x1 x2 x3 x4 x5 (ix2 p q) = Cert.Spec.layerAt x0 x1 x2 x3 x4 x5 p q := by
  unfold k0_pay1
  rw [Cert.Rows.kernel_relu_apply]
  unfold Cert.Spec.layerAt
  rw [addf_apply, addf_apply, dot0_plain, Cert.Rows.matmul_plain_zero_apply, Cert.Rows.matmul_plain_zero_apply,
    Cert.Rows.bias_rows_apply]
  simp only [shapeCast_self, addf_apply, mulf_apply, Cert.Rows.col_bcast_apply]

theorem out0_6_eq (x0 x1 : Vec Ideal S10000x32 .f32) (x2 : Vec Ideal S10000x1 .f32) (x3 x4 : Vec Ideal S32x64 .f32)
    (x5 : Vec Ideal S1x64 .f32) : out0_6 x0 x1 x2 x3 x4 x5 = k0_pay1 x0 x1 x2 x3 x4 x5 := by
  unfold out0_6
  rw [View.canon_unit_zero zero_offs0]
  rw [View.ld_unit_zero (S := S10000x32) zero_offs0, View.ld_unit_zero (S := S10000x32) zero_offs0,
    View.ld_unit_zero (S := S10000x1) zero_offs0, View.ld_unit_zero (S := S32x64) zero_offs0,
    View.ld_unit_zero (S := S32x64) zero_offs0, View.ld_unit_zero (S := S1x64) zero_offs0]

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem iblk0_0_apply (c : Dev nD) (t : Fin cfg0.N) (p : Fin 10000) (k : Fin 32) (r : Fin 100000)
    (hr : r.val = 10000 * t.val + p.val) :
    (iblk0 V c 0 t : Vec Ideal S10000x32 .f32) (ix2 p k) = (V c main_arg0 : Cert.Rows.Arr2 100000 32) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 32 + 1 * k.val = k.val; rw [e1]; omega

theorem iblk0_1_apply (c : Dev nD) (t : Fin cfg0.N) (p : Fin 10000) (k : Fin 32) (r : Fin 100000)
    (hr : r.val = 10000 * t.val + p.val) :
    (iblk0 V c 1 t : Vec Ideal S10000x32 .f32) (ix2 p k) = (V c main_v76 : Cert.Rows.Arr2 100000 32) (ix2 r k) := by
  obtain ⟨-, -, e0, e1, -⟩ := idx_facts0 t
  unfold iblk0
  rw [View.read_apply]
  show V c main_v76 _ = V c main_v76 _
  congr 1
  funext a
  apply Fin.ext
  match a with
  | ⟨0, _⟩ => show win0_1.index t (0 : Fin 2) * 10000 + 1 * p.val = r.val; rw [e0, hr]; omega
  | ⟨1, _⟩ => show win0_1.index t (1 : Fin 2) * 32 + 1 * k.val = k.val; rw [e1]; omega

theorem iblk0_2_apply (c : Dev nD) (t : Fin cfg0.N) (p : Fin 10000) (r : Fin 100000)
    (hr : r.val = 10000 * t.val + p.val) :
    (iblk0 V c 2 t : Vec Ideal S10000x1 .f32) (ix2 p 0) = (V c main_v62 : Cert.Rows.Arr2 100000 1) (ix2 r 0) := by
  obtain ⟨-, -, -, -, e0, e1, -⟩ := idx_facts0 t
  unfold iblk0
  rw [View.read_apply]
  show V c main_v62 _ = V c main_v62 _
  congr 1
  funext a
  apply Fin.ext
  match a with
  | ⟨0, _⟩ => show win0_2.index t (0 : Fin 2) * 10000 + 1 * p.val = r.val; rw [e0, hr]; omega
  | ⟨1, _⟩ => show win0_2.index t (1 : Fin 2) * 1 + 1 * 0 = 0; rw [e1]

theorem iblk0_3_eq (c : Dev nD) (t : Fin cfg0.N) : (iblk0 V c 3 t : Vec Ideal S32x64 .f32) = V c main_v78 := by
  obtain ⟨-, -, -, -, -, -, e0, e1, -⟩ := idx_facts0 t
  funext j
  unfold iblk0
  rw [View.read_apply]
  show V c main_v78 _ = V c main_v78 _
  congr 1
  funext a
  apply Fin.ext
  match a with
  | ⟨0, _⟩ => show win0_3.index t (0 : Fin 2) * 32 + 1 * (j 0).val = (j 0).val; rw [e0]; omega
  | ⟨1, _⟩ => show win0_3.index t (1 : Fin 2) * 64 + 1 * (j 1).val = (j 1).val; rw [e1]; omega

theorem iblk0_4_eq (c : Dev nD) (t : Fin cfg0.N) : (iblk0 V c 4 t : Vec Ideal S32x64 .f32) = V c main_v80 := by
  obtain ⟨-, -, -, -, -, -, -, -, e0, e1, -⟩ := idx_facts0 t
  funext j
  unfold iblk0
  rw [View.read_apply]
  show V c main_v80 _ = V c main_v80 _
  congr 1
  funext a
  apply Fin.ext
  match a with
  | ⟨0, _⟩ => show win0_4.index t (0 : Fin 2) * 32 + 1 * (j 0).val = (j 0).val; rw [e0]; omega
  | ⟨1, _⟩ => show win0_4.index t (1 : Fin 2) * 64 + 1 * (j 1).val = (j 1).val; rw [e1]; omega

theorem iblk0_5_eq (c : Dev nD) (t : Fin cfg0.N) : (iblk0 V c 5 t : Vec Ideal S1x64 .f32) = V c main_v81 := by
  obtain ⟨-, -, -, -, -, -, -, -, -, -, e0, e1, -⟩ := idx_facts0 t
  funext j
  unfold iblk0
  rw [View.read_apply]
  show V c main_v81 _ = V c main_v81 _
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 64 + 1 * (j 1).val = (j 1).val; rw [e1]; omega

theorem layerAt_of_rows0 {R R' K C : Nat} (v s : Cert.Rows.Arr2 R K) (dg : Cert.Rows.Arr2 R 1) (v' s' : Cert.Rows.Arr2 R' K)
    (dg' : Cert.Rows.Arr2 R' 1) (W0 W1 : Cert.Rows.Arr2 K C) (b : Cert.Rows.Arr2 1 C) (p : Fin R') (r : Fin R) (q : Fin C)
    (hv : ∀ k, v' (ix2 p k) = v (ix2 r k)) (hs : ∀ k, s' (ix2 p k) = s (ix2 r k)) (hd : dg' (ix2 p 0) = dg (ix2 r 0)) :
    Cert.Spec.layerAt v' s' dg' W0 W1 b p q = Cert.Spec.layerAt v s dg W0 W1 b r q := by
  unfold Cert.Spec.layerAt
  simp only [hv, hs, hd]

abbrev layer0 (c : Dev nD) : Cert.Rows.Arr2 100000 64 :=
  Cert.Spec.layer (V c main_arg0) (V c main_v76) (V c main_v62) (V c main_v78) (V c main_v80) (V c main_v81)

theorem out0_6_apply (c : Dev nD) (t : Fin cfg0.N) (p : Fin 10000) (q : Fin 64) (r : Fin 100000)
    (hr : r.val = 10000 * t.val + p.val) :
    out0_6 (iblk0 V c 0 t) (iblk0 V c 1 t) (iblk0 V c 2 t) (iblk0 V c 3 t) (iblk0 V c 4 t) (iblk0 V c 5 t) (ix2 p q)
      = layer0 V c (ix2 r q) := by
  rw [out0_6_eq, pay0_apply, iblk0_3_eq, iblk0_4_eq, iblk0_5_eq]
  exact layerAt_of_rows0 _ _ _ _ _ _ _ _ _ p r q (fun k => iblk0_0_apply V c t p k r hr) (fun k => iblk0_1_apply V c t p k r hr)
    (iblk0_2_apply V c t p r hr)

theorem flushed0_6_eq (c : Dev nD) (t : Fin cfg0.N) :
    (dat0 (F := Ideal) V c).flushed 6 t = ((cfg0.win 6).blk t).view.read (Elt Ideal) (layer0 V c) := by
  show (cfg0.win 6).cut (cfg0.grid.coords t) ((dat0 (F := Ideal) V c).after 6 t) = _
  rw [after0_6]
  obtain ⟨-, -, -, -, -, -, -, -, -, -, -, -, e0, e1⟩ := idx_facts0 t
  have ht : t.val < 10 := (show t.val < grid0.N from t.isLt).trans_eq N_0
  funext j
  obtain ⟨p, q, rfl⟩ : ∃ (p : Fin 10000) (q : Fin 64), j = ix2 p q := ⟨j 0, j 1, eq_ix2 j⟩
  rw [View.read_apply]
  show out0_6 (F := Ideal) _ _ _ _ _ _ (ix2 p q) = layer0 V c (((cfg0.win 6).blk t).view.emb (ix2 p q))
  have he : ((cfg0.win 6).blk t).view.emb (ix2 p q) = ix2 (⟨10000 * t.val + p.val, by have := p.isLt; omega⟩ : Fin 100000) q := by
    funext a
    apply Fin.ext
    match a with
    | ⟨0, _⟩ => show win0_6.index t (0 : Fin 2) * 10000 + 1 * p.val = 10000 * t.val + p.val; rw [e0]; omega
    | ⟨1, _⟩ => show win0_6.index t (1 : Fin 2) * 64 + 1 * q.val = q.val; rw [e1]; omega
  rw [he]
  exact out0_6_apply V c t p q _ rfl

theorem mem_blk0_6 (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v82).slice (win0_6.rect t)).set ↔ _
  rw [View.set_slice_whole, Rect.mem_set_unit]
  exact Iff.rfl

theorem rows_cover0 (i : S100000x64.Idx) :
    ∃ t : Fin cfg0.N, (cfg0.win 6).flush t = true ∧ i ∈ ((cfg0.win 6).blk t).view.set := by
  have h0 : (i 0).val < 100000 := (i 0).isLt
  have h1 : (i 1).val < 64 := (i 1).isLt
  have hN : cfg0.N = 10 := N_0
  let t : Fin cfg0.N := ⟨(i 0).val / 10000, by rw [hN]; omega⟩
  have tv : t.val = (i 0).val / 10000 := rfl
  obtain ⟨-, -, -, -, -, -, -, -, -, -, -, -, e0, e1⟩ := idx_facts0 t
  refine ⟨t, flush0_6 t, ?_⟩
  rw [mem_blk0_6]
  intro a
  match a with
  | ⟨0, _⟩ =>
    show win0_6.index t (0 : Fin 2) * 10000 ≤ (i 0).val ∧ (i 0).val < win0_6.index t (0 : Fin 2) * 10000 + 10000
    rw [e0, tv]; omega
  | ⟨1, _⟩ =>
    show win0_6.index t (1 : Fin 2) * 64 ≤ (i 1).val ∧ (i 1).val < win0_6.index t (1 : Fin 2) * 64 + 64
    rw [e1]; omega

theorem final0 (c : Dev nD) :
    (dat0 (F := Ideal) V c).arrAt 6 cfg0.N = Cert.Spec.layer (V c main_arg0) (V c main_v76) (V c main_v62) (V c main_v78) (V c main_v80) (V c main_v81) :=
  (dat0 (F := Ideal) V c).arrAt_eq_of_cover 6 (layer0 V c) (fun t _ => flushed0_6_eq V c t) rows_cover0

end Cert.KernelIdeal.Hand

end
-- ==== Proof.KI.Val1.lean ====
/- A row block of a layer is the layer of the same row block of its three row operands, and the ten blocks tile the rows: the region's result array is the layer of the arrays it was entered with. -/
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«411333_j58291296141746_2_alg».proof.Proof.KI.Reg1
import proofs.«411333_j58291296141746_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem zero_offs1 : (![0, 0] : Fin 2 → Nat) = fun _ => 0 := funext fun a => by fin_cases a <;> rfl

theorem dot1_plain : dot_S10000x64_S64x64_S10000x64_1_0_0_1_n_n = DotDims.plain 10000 64 64 := rfl

theorem pay1_apply (x0 x1 : Vec Ideal S10000x64 .f32) (x2 : Vec Ideal S10000x1 .f32) (x3 x4 : Vec Ideal S64x64 .f32)
    (x5 : Vec Ideal S1x64 .f32) (p : Fin 10000) (q : Fin 64) :
    k1_pay1 x0 x1 x2 x3 x4 x5 (ix2 p q) = Cert.Spec.layerAt x0 x1 x2 x3 x4 x5 p q := by
  unfold k1_pay1
  rw [Cert.Rows.kernel_relu_apply]
  unfold Cert.Spec.layerAt
  rw [addf_apply, addf_apply, dot1_plain, Cert.Rows.matmul_plain_zero_apply, Cert.Rows.matmul_plain_zero_apply,
    Cert.Rows.bias_rows_apply]
  simp only [shapeCast_self, addf_apply, mulf_apply, Cert.Rows.col_bcast_apply]

theorem out1_6_eq (x0 x1 : Vec Ideal S10000x64 .f32) (x2 : Vec Ideal S10000x1 .f32) (x3 x4 : Vec Ideal S64x64 .f32)
    (x5 : Vec Ideal S1x64 .f32) : out1_6 x0 x1 x2 x3 x4 x5 = k1_pay1 x0 x1 x2 x3 x4 x5 := by
  unfold out1_6
  rw [View.canon_unit_zero zero_offs1]
  rw [View.ld_unit_zero (S := S10000x64) zero_offs1, View.ld_unit_zero (S := S10000x64) zero_offs1,
    View.ld_unit_zero (S := S10000x1) zero_offs1, View.ld_unit_zero (S := S64x64) zero_offs1,
    View.ld_unit_zero (S := S64x64) zero_offs1, View.ld_unit_zero (S := S1x64) zero_offs1]

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem iblk1_0_apply (c : Dev nD) (t : Fin cfg1.N) (p : Fin 10000) (k : Fin 64) (r : Fin 100000)
    (hr : r.val = 10000 * t.val + p.val) :
    (iblk1 V c 0 t : Vec Ideal S10000x64 .f32) (ix2 p k) = (V c main_v82 : Cert.Rows.Arr2 100000 64) (ix2 r k) := by
  obtain ⟨e0, e1, -⟩ := idx_facts1 t
  unfold iblk1
  rw [View.read_apply]
  show V c main_v82 _ = V c main_v82 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

theorem iblk1_1_apply (c : Dev nD) (t : Fin cfg1.N) (p : Fin 10000) (k : Fin 64) (r : Fin 100000)
    (hr : r.val = 10000 * t.val + p.val) :
    (iblk1 V c 1 t : Vec Ideal S10000x64 .f32) (ix2 p k) = (V c main_v95 : Cert.Rows.Arr2 100000 64) (ix2 r k) := by
  obtain ⟨-, -, e0, e1, -⟩ := idx_facts1 t
  unfold iblk1
  rw [View.read_apply]
  show V c main_v95 _ = V c main_v95 _
  congr 1
  funext a
  apply Fin.ext
  match a with
  | ⟨0, _⟩ => show win1_1.index t (0 : Fin 2) * 10000 + 1 * p.val = r.val; rw [e0, hr]; omega
  | ⟨1, _⟩ => show win1_1.index t (1 : Fin 2) * 64 + 1 * k.val = k.val; rw [e1]; omega

theorem iblk1_2_apply (c : Dev nD) (t : Fin cfg1.N) (p : Fin 10000) (r : Fin 100000)
    (hr : r.val = 10000 * t.val + p.val) :
    (iblk1 V c 2 t : Vec Ideal S10000x1 .f32) (ix2 p 0) = (V c main_v62 : Cert.Rows.Arr2 100000 1) (ix2 r 0) := by
  obtain ⟨-, -, -, -, e0, e1, -⟩ := idx_facts1 t
  unfold iblk1
  rw [View.read_apply]
  show V c main_v62 _ = V c main_v62 _
  congr 1
  funext a
  apply Fin.ext
  match a with
  | ⟨0, _⟩ => show win1_2.index t (0 : Fin 2) * 10000 + 1 * p.val = r.val; rw [e0, hr]; omega
  | ⟨1, _⟩ => show win1_2.index t (1 : Fin 2) * 1 + 1 * 0 = 0; rw [e1]

theorem iblk1_3_eq (c : Dev nD) (t : Fin cfg1.N) : (iblk1 V c 3 t : Vec Ideal S64x64 .f32) = V c main_v97 := by
  obtain ⟨-, -, -, -, -, -, e0, e1, -⟩ := idx_facts1 t
  funext j
  unfold iblk1
  rw [View.read_apply]
  show V c main_v97 _ = V c main_v97 _
  congr 1
  funext a
  apply Fin.ext
  match a with
  | ⟨0, _⟩ => show win1_3.index t (0 : Fin 2) * 64 + 1 * (j 0).val = (j 0).val; rw [e0]; omega
  | ⟨1, _⟩ => show win1_3.index t (1 : Fin 2) * 64 + 1 * (j 1).val = (j 1).val; rw [e1]; omega

theorem iblk1_4_eq (c : Dev nD) (t : Fin cfg1.N) : (iblk1 V c 4 t : Vec Ideal S64x64 .f32) = V c main_v99 := by
  obtain ⟨-, -, -, -, -, -, -, -, e0, e1, -⟩ := idx_facts1 t
  funext j
  unfold iblk1
  rw [View.read_apply]
  show V c main_v99 _ = V c main_v99 _
  congr 1
  funext a
  apply Fin.ext
  match a with
  | ⟨0, _⟩ => show win1_4.index t (0 : Fin 2) * 64 + 1 * (j 0).val = (j 0).val; rw [e0]; omega
  | ⟨1, _⟩ => show win1_4.index t (1 : Fin 2) * 64 + 1 * (j 1).val = (j 1).val; rw [e1]; omega

theorem iblk1_5_eq (c : Dev nD) (t : Fin cfg1.N) : (iblk1 V c 5 t : Vec Ideal S1x64 .f32) = V c main_v100 := by
  obtain ⟨-, -, -, -, -, -, -, -, -, -, e0, e1, -⟩ := idx_facts1 t
  funext j
  unfold iblk1
  rw [View.read_apply]
  show V c main_v100 _ = V c main_v100 _
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 64 + 1 * (j 1).val = (j 1).val; rw [e1]; omega

theorem layerAt_of_rows1 {R R' K C : Nat} (v s : Cert.Rows.Arr2 R K) (dg : Cert.Rows.Arr2 R 1) (v' s' : Cert.Rows.Arr2 R' K)
    (dg' : Cert.Rows.Arr2 R' 1) (W0 W1 : Cert.Rows.Arr2 K C) (b : Cert.Rows.Arr2 1 C) (p : Fin R') (r : Fin R) (q : Fin C)
    (hv : ∀ k, v' (ix2 p k) = v (ix2 r k)) (hs : ∀ k, s' (ix2 p k) = s (ix2 r k)) (hd : dg' (ix2 p 0) = dg (ix2 r 0)) :
    Cert.Spec.layerAt v' s' dg' W0 W1 b p q = Cert.Spec.layerAt v s dg W0 W1 b r q := by
  unfold Cert.Spec.layerAt
  simp only [hv, hs, hd]

abbrev layer1 (c : Dev nD) : Cert.Rows.Arr2 100000 64 :=
  Cert.Spec.layer (V c main_v82) (V c main_v95) (V c main_v62) (V c main_v97) (V c main_v99) (V c main_v100)

theorem out1_6_apply (c : Dev nD) (t : Fin cfg1.N) (p : Fin 10000) (q : Fin 64) (r : Fin 100000)
    (hr : r.val = 10000 * t.val + p.val) :
    out1_6 (iblk1 V c 0 t) (iblk1 V c 1 t) (iblk1 V c 2 t) (iblk1 V c 3 t) (iblk1 V c 4 t) (iblk1 V c 5 t) (ix2 p q)
      = layer1 V c (ix2 r q) := by
  rw [out1_6_eq, pay1_apply, iblk1_3_eq, iblk1_4_eq, iblk1_5_eq]
  exact layerAt_of_rows1 _ _ _ _ _ _ _ _ _ p r q (fun k => iblk1_0_apply V c t p k r hr) (fun k => iblk1_1_apply V c t p k r hr)
    (iblk1_2_apply V c t p r hr)

theorem flushed1_6_eq (c : Dev nD) (t : Fin cfg1.N) :
    (dat1 (F := Ideal) V c).flushed 6 t = ((cfg1.win 6).blk t).view.read (Elt Ideal) (layer1 V c) := by
  show (cfg1.win 6).cut (cfg1.grid.coords t) ((dat1 (F := Ideal) V c).after 6 t) = _
  rw [after1_6]
  obtain ⟨-, -, -, -, -, -, -, -, -, -, -, -, e0, e1⟩ := idx_facts1 t
  have ht : t.val < 10 := (show t.val < grid1.N from t.isLt).trans_eq N_1
  funext j
  obtain ⟨p, q, rfl⟩ : ∃ (p : Fin 10000) (q : Fin 64), j = ix2 p q := ⟨j 0, j 1, eq_ix2 j⟩
  rw [View.read_apply]
  show out1_6 (F := Ideal) _ _ _ _ _ _ (ix2 p q) = layer1 V c (((cfg1.win 6).blk t).view.emb (ix2 p q))
  have he : ((cfg1.win 6).blk t).view.emb (ix2 p q) = ix2 (⟨10000 * t.val + p.val, by have := p.isLt; omega⟩ : Fin 100000) q := by
    funext a
    apply Fin.ext
    match a with
    | ⟨0, _⟩ => show win1_6.index t (0 : Fin 2) * 10000 + 1 * p.val = 10000 * t.val + p.val; rw [e0]; omega
    | ⟨1, _⟩ => show win1_6.index t (1 : Fin 2) * 64 + 1 * q.val = q.val; rw [e1]; omega
  rw [he]
  exact out1_6_apply V c t p q _ rfl

theorem mem_blk1_6 (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v101).slice (win1_6.rect t)).set ↔ _
  rw [View.set_slice_whole, Rect.mem_set_unit]
  exact Iff.rfl

theorem rows_cover1 (i : S100000x64.Idx) :
    ∃ t : Fin cfg1.N, (cfg1.win 6).flush t = true ∧ i ∈ ((cfg1.win 6).blk t).view.set := by
  have h0 : (i 0).val < 100000 := (i 0).isLt
  have h1 : (i 1).val < 64 := (i 1).isLt
  have hN : cfg1.N = 10 := N_1
  let t : Fin cfg1.N := ⟨(i 0).val / 10000, by rw [hN]; omega⟩
  have tv : t.val = (i 0).val / 10000 := rfl
  obtain ⟨-, -, -, -, -, -, -, -, -, -, -, -, e0, e1⟩ := idx_facts1 t
  refine ⟨t, flush1_6 t, ?_⟩
  rw [mem_blk1_6]
  intro a
  match a with
  | ⟨0, _⟩ =>
    show win1_6.index t (0 : Fin 2) * 10000 ≤ (i 0).val ∧ (i 0).val < win1_6.index t (0 : Fin 2) * 10000 + 10000
    rw [e0, tv]; omega
  | ⟨1, _⟩ =>
    show win1_6.index t (1 : Fin 2) * 64 ≤ (i 1).val ∧ (i 1).val < win1_6.index t (1 : Fin 2) * 64 + 64
    rw [e1]; omega

theorem final1 (c : Dev nD) :
    (dat1 (F := Ideal) V c).arrAt 6 cfg1.N = Cert.Spec.layer (V c main_v82) (V c main_v95) (V c main_v62) (V c main_v97) (V c main_v99) (V c main_v100) :=
  (dat1 (F := Ideal) V c).arrAt_eq_of_cover 6 (layer1 V c) (fun t _ => flushed1_6_eq V c t) rows_cover1

end Cert.KernelIdeal.Hand

end
-- ==== Proof.KI.Val2.lean ====
/- A row block of a layer is the layer of the same row block of its three row operands, and the ten blocks tile the rows: the region's result array is the layer of the arrays it was entered with. -/
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«411333_j58291296141746_2_alg».proof.Proof.KI.Reg2
import proofs.«411333_j58291296141746_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem zero_offs2 : (![0, 0] : Fin 2 → Nat) = fun _ => 0 := funext fun a => by fin_cases a <;> rfl

theorem dot2_plain : dot_S10000x64_S64x64_S10000x64_1_0_0_1_n_n = DotDims.plain 10000 64 64 := rfl

theorem pay2_apply (x0 x1 : Vec Ideal S10000x64 .f32) (x2 : Vec Ideal S10000x1 .f32) (x3 x4 : Vec Ideal S64x64 .f32)
    (x5 : Vec Ideal S1x64 .f32) (p : Fin 10000) (q : Fin 64) :
    k2_pay1 x0 x1 x2 x3 x4 x5 (ix2 p q) = Cert.Spec.layerAt x0 x1 x2 x3 x4 x5 p q := by
  unfold k2_pay1
  rw [Cert.Rows.kernel_relu_apply]
  unfold Cert.Spec.layerAt
  rw [addf_apply, addf_apply, dot2_plain, Cert.Rows.matmul_plain_zero_apply, Cert.Rows.matmul_plain_zero_apply,
    Cert.Rows.bias_rows_apply]
  simp only [shapeCast_self, addf_apply, mulf_apply, Cert.Rows.col_bcast_apply]

theorem out2_6_eq (x0 x1 : Vec Ideal S10000x64 .f32) (x2 : Vec Ideal S10000x1 .f32) (x3 x4 : Vec Ideal S64x64 .f32)
    (x5 : Vec Ideal S1x64 .f32) : out2_6 x0 x1 x2 x3 x4 x5 = k2_pay1 x0 x1 x2 x3 x4 x5 := by
  unfold out2_6
  rw [View.canon_unit_zero zero_offs2]
  rw [View.ld_unit_zero (S := S10000x64) zero_offs2, View.ld_unit_zero (S := S10000x64) zero_offs2,
    View.ld_unit_zero (S := S10000x1) zero_offs2, View.ld_unit_zero (S := S64x64) zero_offs2,
    View.ld_unit_zero (S := S64x64) zero_offs2, View.ld_unit_zero (S := S1x64) zero_offs2]

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem iblk2_0_apply (c : Dev nD) (t : Fin cfg2.N) (p : Fin 10000) (k : Fin 64) (r : Fin 100000)
    (hr : r.val = 10000 * t.val + p.val) :
    (iblk2 V c 0 t : Vec Ideal S10000x64 .f32) (ix2 p k) = (V c main_v101 : Cert.Rows.Arr2 100000 64) (ix2 r k) := by
  obtain ⟨e0, e1, -⟩ := idx_facts2 t
  unfold iblk2
  rw [View.read_apply]
  show V c main_v101 _ = V c main_v101 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 64 + 1 * k.val = k.val; rw [e1]; omega

theorem iblk2_1_apply (c : Dev nD) (t : Fin cfg2.N) (p : Fin 10000) (k : Fin 64) (r : Fin 100000)
    (hr : r.val = 10000 * t.val + p.val) :
    (iblk2 V c 1 t : Vec Ideal S10000x64 .f32) (ix2 p k) = (V c main_v114 : Cert.Rows.Arr2 100000 64) (ix2 r k) := by
  obtain ⟨-, -, e0, e1, -⟩ := idx_facts2 t
  unfold iblk2
  rw [View.read_apply]
  show V c main_v114 _ = V c main_v114 _
  congr 1
  funext a
  apply Fin.ext
  match a with
  | ⟨0, _⟩ => show win2_1.index t (0 : Fin 2) * 10000 + 1 * p.val = r.val; rw [e0, hr]; omega
  | ⟨1, _⟩ => show win2_1.index t (1 : Fin 2) * 64 + 1 * k.val = k.val; rw [e1]; omega

theorem iblk2_2_apply (c : Dev nD) (t : Fin cfg2.N) (p : Fin 10000) (r : Fin 100000)
    (hr : r.val = 10000 * t.val + p.val) :
    (iblk2 V c 2 t : Vec Ideal S10000x1 .f32) (ix2 p 0) = (V c main_v62 : Cert.Rows.Arr2 100000 1) (ix2 r 0) := by
  obtain ⟨-, -, -, -, e0, e1, -⟩ := idx_facts2 t
  unfold iblk2
  rw [View.read_apply]
  show V c main_v62 _ = V c main_v62 _
  congr 1
  funext a
  apply Fin.ext
  match a with
  | ⟨0, _⟩ => show win2_2.index t (0 : Fin 2) * 10000 + 1 * p.val = r.val; rw [e0, hr]; omega
  | ⟨1, _⟩ => show win2_2.index t (1 : Fin 2) * 1 + 1 * 0 = 0; rw [e1]

theorem iblk2_3_eq (c : Dev nD) (t : Fin cfg2.N) : (iblk2 V c 3 t : Vec Ideal S64x64 .f32) = V c main_v116 := by
  obtain ⟨-, -, -, -, -, -, e0, e1, -⟩ := idx_facts2 t
  funext j
  unfold iblk2
  rw [View.read_apply]
  show V c main_v116 _ = V c main_v116 _
  congr 1
  funext a
  apply Fin.ext
  match a with
  | ⟨0, _⟩ => show win2_3.index t (0 : Fin 2) * 64 + 1 * (j 0).val = (j 0).val; rw [e0]; omega
  | ⟨1, _⟩ => show win2_3.index t (1 : Fin 2) * 64 + 1 * (j 1).val = (j 1).val; rw [e1]; omega

theorem iblk2_4_eq (c : Dev nD) (t : Fin cfg2.N) : (iblk2 V c 4 t : Vec Ideal S64x64 .f32) = V c main_v118 := by
  obtain ⟨-, -, -, -, -, -, -, -, e0, e1, -⟩ := idx_facts2 t
  funext j
  unfold iblk2
  rw [View.read_apply]
  show V c main_v118 _ = V c main_v118 _
  congr 1
  funext a
  apply Fin.ext
  match a with
  | ⟨0, _⟩ => show win2_4.index t (0 : Fin 2) * 64 + 1 * (j 0).val = (j 0).val; rw [e0]; omega
  | ⟨1, _⟩ => show win2_4.index t (1 : Fin 2) * 64 + 1 * (j 1).val = (j 1).val; rw [e1]; omega

theorem iblk2_5_eq (c : Dev nD) (t : Fin cfg2.N) : (iblk2 V c 5 t : Vec Ideal S1x64 .f32) = V c main_v119 := by
  obtain ⟨-, -, -, -, -, -, -, -, -, -, e0, e1, -⟩ := idx_facts2 t
  funext j
  unfold iblk2
  rw [View.read_apply]
  show V c main_v119 _ = V c main_v119 _
  congr 1
  funext a
  apply Fin.ext
  match a with
  | ⟨0, _⟩ => show win2_5.index t (0 : Fin 2) * 1 + 1 * (j 0).val = (j 0).val; rw [e0]; omega
  | ⟨1, _⟩ => show win2_5.index t (1 : Fin 2) * 64 + 1 * (j 1).val = (j 1).val; rw [e1]; omega

theorem layerAt_of_rows2 {R R' K C : Nat} (v s : Cert.Rows.Arr2 R K) (dg : Cert.Rows.Arr2 R 1) (v' s' : Cert.Rows.Arr2 R' K)
    (dg' : Cert.Rows.Arr2 R' 1) (W0 W1 : Cert.Rows.Arr2 K C) (b : Cert.Rows.Arr2 1 C) (p : Fin R') (r : Fin R) (q : Fin C)
    (hv : ∀ k, v' (ix2 p k) = v (ix2 r k)) (hs : ∀ k, s' (ix2 p k) = s (ix2 r k)) (hd : dg' (ix2 p 0) = dg (ix2 r 0)) :
    Cert.Spec.layerAt v' s' dg' W0 W1 b p q = Cert.Spec.layerAt v s dg W0 W1 b r q := by
  unfold Cert.Spec.layerAt
  simp only [hv, hs, hd]

abbrev layer2 (c : Dev nD) : Cert.Rows.Arr2 100000 64 :=
  Cert.Spec.layer (V c main_v101) (V c main_v114) (V c main_v62) (V c main_v116) (V c main_v118) (V c main_v119)

theorem out2_6_apply (c : Dev nD) (t : Fin cfg2.N) (p : Fin 10000) (q : Fin 64) (r : Fin 100000)
    (hr : r.val = 10000 * t.val + p.val) :
    out2_6 (iblk2 V c 0 t) (iblk2 V c 1 t) (iblk2 V c 2 t) (iblk2 V c 3 t) (iblk2 V c 4 t) (iblk2 V c 5 t) (ix2 p q)
      = layer2 V c (ix2 r q) := by
  rw [out2_6_eq, pay2_apply, iblk2_3_eq, iblk2_4_eq, iblk2_5_eq]
  exact layerAt_of_rows2 _ _ _ _ _ _ _ _ _ p r q (fun k => iblk2_0_apply V c t p k r hr) (fun k => iblk2_1_apply V c t p k r hr)
    (iblk2_2_apply V c t p r hr)

theorem flushed2_6_eq (c : Dev nD) (t : Fin cfg2.N) :
    (dat2 (F := Ideal) V c).flushed 6 t = ((cfg2.win 6).blk t).view.read (Elt Ideal) (layer2 V c) := by
  show (cfg2.win 6).cut (cfg2.grid.coords t) ((dat2 (F := Ideal) V c).after 6 t) = _
  rw [after2_6]
  obtain ⟨-, -, -, -, -, -, -, -, -, -, -, -, e0, e1⟩ := idx_facts2 t
  have ht : t.val < 10 := (show t.val < grid2.N from t.isLt).trans_eq N_2
  funext j
  obtain ⟨p, q, rfl⟩ : ∃ (p : Fin 10000) (q : Fin 64), j = ix2 p q := ⟨j 0, j 1, eq_ix2 j⟩
  rw [View.read_apply]
  show out2_6 (F := Ideal) _ _ _ _ _ _ (ix2 p q) = layer2 V c (((cfg2.win 6).blk t).view.emb (ix2 p q))
  have he : ((cfg2.win 6).blk t).view.emb (ix2 p q) = ix2 (⟨10000 * t.val + p.val, by have := p.isLt; omega⟩ : Fin 100000) q := by
    funext a
    apply Fin.ext
    match a with
    | ⟨0, _⟩ => show win2_6.index t (0 : Fin 2) * 10000 + 1 * p.val = 10000 * t.val + p.val; rw [e0]; omega
    | ⟨1, _⟩ => show win2_6.index t (1 : Fin 2) * 64 + 1 * q.val = q.val; rw [e1]; omega
  rw [he]
  exact out2_6_apply V c t p q _ rfl

theorem mem_blk2_6 (t : Fin cfg2.N) (i : S100000x64.Idx) :
    i ∈ ((cfg2.win 6).blk t).view.set ↔ ∀ a : Fin 2, win2_6.index t a * S10000x64.size a ≤ (i a).val
      ∧ (i a).val < win2_6.index t a * S10000x64.size a + S10000x64.size a := by
  show i ∈ ((View.whole main_v120).slice (win2_6.rect t)).set ↔ _
  rw [View.set_slice_whole, Rect.mem_set_unit]
  exact Iff.rfl

theorem rows_cover2 (i : S100000x64.Idx) :
    ∃ t : Fin cfg2.N, (cfg2.win 6).flush t = true ∧ i ∈ ((cfg2.win 6).blk t).view.set := by
  have h0 : (i 0).val < 100000 := (i 0).isLt
  have h1 : (i 1).val < 64 := (i 1).isLt
  have hN : cfg2.N = 10 := N_2
  let t : Fin cfg2.N := ⟨(i 0).val / 10000, by rw [hN]; omega⟩
  have tv : t.val = (i 0).val / 10000 := rfl
  obtain ⟨-, -, -, -, -, -, -, -, -, -, -, -, e0, e1⟩ := idx_facts2 t
  refine ⟨t, flush2_6 t, ?_⟩
  rw [mem_blk2_6]
  intro a
  match a with
  | ⟨0, _⟩ =>
    show win2_6.index t (0 : Fin 2) * 10000 ≤ (i 0).val ∧ (i 0).val < win2_6.index t (0 : Fin 2) * 10000 + 10000
    rw [e0, tv]; omega
  | ⟨1, _⟩ =>
    show win2_6.index t (1 : Fin 2) * 64 ≤ (i 1).val ∧ (i 1).val < win2_6.index t (1 : Fin 2) * 64 + 64
    rw [e1]; omega

theorem final2 (c : Dev nD) :
    (dat2 (F := Ideal) V c).arrAt 6 cfg2.N = Cert.Spec.layer (V c main_v101) (V c main_v114) (V c main_v62) (V c main_v116) (V c main_v118) (V c main_v119) :=
  (dat2 (F := Ideal) V c).arrAt_eq_of_cover 6 (layer2 V c) (fun t _ => flushed2_6_eq V c t) rows_cover2

end Cert.KernelIdeal.Hand

end
-- ==== Proof.KI.Val3.lean ====
/- The scratch after point n holds the per-graph sums of the fourth layer over rows below 2000·(n+1), by induction on the point; the last point writes the dense head of the full sums. -/
import proofs.«411333_j58291296141746_2_alg».proof.Proof.Gen.KernelIdeal.Launch
import proofs.«411333_j58291296141746_2_alg».proof.Proof.Gen.KernelIdeal.Skeleton
import proofs.«411333_j58291296141746_2_alg».proof.Proof.Gen.KernelIdeal.Points
import proofs.«411333_j58291296141746_2_alg».proof.Proof.KI.Reg3
import proofs.«411333_j58291296141746_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows
open scoped BigOperators

namespace V3

theorem onehot_word (w : BitVec 32) (g : Nat) :
    (FloatOps.sitofp (F := Ideal) .f32 ((IntOp.cmpi .eq w (BitVec.ofNat 32 g)).setWidth 32) : EReal)
      = if w = BitVec.ofNat 32 g then 1 else 0 := by
  by_cases h : w = BitVec.ofNat 32 g
  · have hc : IntOp.cmpi .eq w (BitVec.ofNat 32 g) = 1#1 := by
      unfold IntOp.cmpi; rw [h]; simp
    rw [if_pos h, hc]
    show (((BitVec.setWidth 32 1#1).toInt : ℝ) : EReal) = 1
    rw [show (BitVec.setWidth 32 1#1).toInt = 1 from by decide]
    simp
  · have hc : IntOp.cmpi .eq w (BitVec.ofNat 32 g) = 0#1 := by
      unfold IntOp.cmpi
      rw [show (w == BitVec.ofNat 32 g) = false from beq_eq_false_iff_ne.mpr h]
      rfl
    rw [if_neg h, hc]
    show (((BitVec.setWidth 32 0#1).toInt : ℝ) : EReal) = 0
    rw [show (BitVec.setWidth 32 0#1).toInt = 0 from by decide]
    simp

abbrev dotT : DotDims S2000x256 S2000x64 S256x64 := dot_S2000x256_S2000x64_S256x64_0_0_1_1_n_n

theorem dotT_lhs_0 (i : S256x64.Idx) (k : dotT.contr.Idx) : (dotT.lhsIdx i k 0).val = (k ⟨0, by decide⟩).val :=
  dotT.lhsIdx_val_of_single rfl i k
theorem dotT_lhs_1 (i : S256x64.Idx) (k : dotT.contr.Idx) : (dotT.lhsIdx i k 1).val = (i 0).val := by
  unfold DotDims.lhsIdx
  rw [dif_neg (show ¬(1 : Fin S2000x256.rank) ∈ dotT.lhsBatch by decide),
    dif_pos (show (1 : Fin S2000x256.rank) ∈ dotT.lhsNonContracting by decide)]
  rfl
theorem dotT_rhs_0 (i : S256x64.Idx) (k : dotT.contr.Idx) : (dotT.rhsIdx i k 0).val = (k ⟨0, by decide⟩).val :=
  dotT.rhsIdx_val_of_single rfl i k
theorem dotT_rhs_1 (i : S256x64.Idx) (k : dotT.contr.Idx) : (dotT.rhsIdx i k 1).val = (i 1).val := by
  unfold DotDims.rhsIdx
  rw [dif_neg (show ¬(1 : Fin S2000x64.rank) ∈ dotT.rhsBatch by decide),
    dif_pos (show (1 : Fin S2000x64.rank) ∈ dotT.rhsNonContracting by decide)]
  rfl

theorem matmulT_zero_apply (A : FVec Ideal S2000x256 .f32) (B : FVec Ideal S2000x64 .f32) (a : Fin 256) (b : Fin 64) :
    matmul dotT (some .fp32) A B (constant S256x64 .f32 0x00000000#32) (ix2 a b)
      = ∑ j : Fin 2000, A (ix2 j a) * B (ix2 j b) := by
  show FloatOps.matmul dotT (some .fp32) A B (constant S256x64 .f32 0x00000000#32) (ix2 a b) = _
  rw [Ideal.matmul_constant_zero_apply, ← Equiv.sum_comp (contrEquiv1 dotT 2000 rfl rfl).symm]
  refine Finset.sum_congr rfl fun j _ => ?_
  have hj := contrEquiv1_symm_val dotT 2000 rfl rfl j
  have el : dotT.lhsIdx (ix2 a b) ((contrEquiv1 dotT 2000 rfl rfl).symm j) = ix2 j a := funext fun ax => Fin.ext (by
    match ax with
    | ⟨0, _⟩ => exact (dotT_lhs_0 _ _).trans hj
    | ⟨1, _⟩ => exact dotT_lhs_1 _ _)
  have er : dotT.rhsIdx (ix2 a b) ((contrEquiv1 dotT 2000 rfl rfl).symm j) = ix2 j b := funext fun ax => Fin.ext (by
    match ax with
    | ⟨0, _⟩ => exact (dotT_rhs_0 _ _).trans hj
    | ⟨1, _⟩ => exact dotT_rhs_1 _ _)
  rw [el, er]

theorem dotP_eq : dot_S2000x64_S64x64_S2000x64_1_0_0_1_n_n = DotDims.plain 2000 64 64 := rfl
theorem dotA_eq : dot_S256x64_S64x32_S256x32_1_0_0_1_n_n = DotDims.plain 256 64 32 := rfl
theorem dotB_eq : dot_S256x32_S32x1_S256x1_1_0_0_1_n_n = DotDims.plain 256 32 1 := rfl

theorem pay5_apply (v s : Arr2 2000 64) (dg : Arr2 2000 1) (W0 W1 : Arr2 64 64) (b : Arr2 1 64) (bt : Cert.Spec.Col 2000)
    (old : Arr2 256 64) (g : Fin 256) (q : Fin 64) :
    k3_pay5 (F := Ideal) v s dg W0 W1 b bt old (ix2 g q)
      = old (ix2 g q) + ∑ j : Fin 2000,
          (if bt (ix2 j 0) = BitVec.ofNat 32 g.val then Cert.Spec.layerAt v s dg W0 W1 b j q else 0) := by
  unfold k3_pay5
  simp only [shapeCast_self]
  rw [addf_apply]
  refine congrArg (old (ix2 g q) + ·) ?_
  refine (matmulT_zero_apply _ _ g q).trans (Finset.sum_congr rfl fun j _ => ?_)
  rw [sitofp_apply, extui_apply]
  show FloatOps.sitofp (F := Ideal) .f32 ((IntOp.cmpi .eq (broadcastTo S2000x256 bt _ (ix2 j g)) (iota .tc S2000x256 32 [1] _ (ix2 j g))).setWidth 32) * _ = _
  rw [col_bcast_apply, iota_single_apply, onehot_word]
  show (if bt (ix2 j 0) = BitVec.ofNat 32 g.val then (1 : EReal) else 0) * _ = _
  rw [ite_mul, one_mul, zero_mul]
  refine if_congr Iff.rfl ?_ rfl
  rw [kernel_relu_apply, addf_apply, addf_apply, row_bcast_apply, dotP_eq, matmul_plain_zero_apply, matmul_plain_zero_apply]
  unfold Cert.Spec.layerAt
  refine congrArg (max · z32) (congrArg (· + b (ix2 0 q)) (congrArg ((∑ k : Fin 64, v (ix2 j k) * W0 (ix2 k q)) + ·) ?_))
  refine Finset.sum_congr rfl fun k _ => ?_
  rw [addf_apply, mulf_apply, col_bcast_apply]

theorem pay2_apply (P : Arr2 256 64) (A : Arr2 64 32) (a : Arr2 1 32) (B : Arr2 32 1) (β : Arr2 1 1) (g : Fin 256) :
    k3_pay2 (F := Ideal) P A a B β (ix2 g 0)
      = (∑ j : Fin 32, max ((∑ h : Fin 64, P (ix2 g h) * A (ix2 h j)) + a (ix2 0 j)) z32 * B (ix2 j 0)) + β (ix2 0 0) := by
  unfold k3_pay2
  simp only [shapeCast_self]
  rw [addf_apply, row_bcast_apply, dotB_eq, matmul_plain_zero_apply]
  refine congrArg (· + β (ix2 0 0)) (Finset.sum_congr rfl fun j _ => ?_)
  rw [kernel_relu_apply, addf_apply, row_bcast_apply, dotA_eq, matmul_plain_zero_apply]

theorem pay3_apply (i : S256x64.Idx) : k3_pay3 (F := Ideal) i = 0 := by
  unfold k3_pay3
  simp only [shapeCast_self]
  exact Ideal.ofBits_zero_f32

theorem pay1_eq (x : FVec Ideal S256x64 .f32) : k3_pay1 x = x := by
  unfold k3_pay1
  exact shapeCast_self _ _

theorem idx3 : ∀ t : Fin cfg3.N,
    (win3_0.index t 0 = t.val ∧ win3_0.index t 1 = 0) ∧ (win3_1.index t 0 = t.val ∧ win3_1.index t 1 = 0)
    ∧ (win3_2.index t 0 = t.val ∧ win3_2.index t 1 = 0) ∧ (win3_6.index t 0 = t.val ∧ win3_6.index t 1 = 0)
    ∧ (win3_3.index t 0 = 0 ∧ win3_3.index t 1 = 0) ∧ (win3_4.index t 0 = 0 ∧ win3_4.index t 1 = 0)
    ∧ (win3_5.index t 0 = 0 ∧ win3_5.index t 1 = 0) ∧ (win3_7.index t 0 = 0 ∧ win3_7.index t 1 = 0)
    ∧ (win3_8.index t 0 = 0 ∧ win3_8.index t 1 = 0) ∧ (win3_9.index t 0 = 0 ∧ win3_9.index t 1 = 0)
    ∧ (win3_10.index t 0 = 0 ∧ win3_10.index t 1 = 0) ∧ (win3_11.index t 0 = 0 ∧ win3_11.index t 1 = 0) :=
  (by decide +kernel : ∀ t : Fin grid3.N, _)

theorem row_lt (t : Fin cfg3.N) (j : Fin 2000) : 2000 * t.val + j.val < 100000 := by
  have := t.isLt; have hN : cfg3.N = 50 := N_3; have := j.isLt; omega

section Blocks
variable (V : (c : Dev nD) → (b : Ref sig .tc) → Buf (Elt Ideal) ((c : Thread nD τ).loc b))

theorem blk3_0 (c : Dev nD) (t : Fin cfg3.N) (j : Fin 2000) (k : Fin 64) :
    iblk3 V c 0 t (ix2 j k) = V c main_v120 (ix2 ⟨2000 * t.val + j.val, row_lt t j⟩ k) := by
  unfold iblk3
  rw [View.read_apply]
  show V c main_v120 _ = V c main_v120 _
  refine congrArg _ (funext fun a => Fin.ext ?_)
  match a with
  | ⟨0, _⟩ => show win3_0.index t 0 * 2000 + 1 * j.val = 2000 * t.val + j.val; rw [(idx3 t).1.1]; omega
  | ⟨1, _⟩ => show win3_0.index t 1 * 64 + 1 * k.val = k.val; rw [(idx3 t).1.2]; omega

theorem blk3_1 (c : Dev nD) (t : Fin cfg3.N) (j : Fin 2000) (k : Fin 64) :
    iblk3 V c 1 t (ix2 j k) = V c main_v133 (ix2 ⟨2000 * t.val + j.val, row_lt t j⟩ k) := by
  unfold iblk3
  rw [View.read_apply]
  show V c main_v133 _ = V c main_v133 _
  refine congrArg _ (funext fun a => Fin.ext ?_)
  match a with
  | ⟨0, _⟩ => show win3_1.index t 0 * 2000 + 1 * j.val = 2000 * t.val + j.val; rw [(idx3 t).2.1.1]; omega
  | ⟨1, _⟩ => show win3_1.index t 1 * 64 + 1 * k.val = k.val; rw [(idx3 t).2.1.2]; omega

theorem blk3_2 (c : Dev nD) (t : Fin cfg3.N) (j : Fin 2000) (k : Fin 1) :
    iblk3 V c 2 t (ix2 j k) = V c main_v62 (ix2 ⟨2000 * t.val + j.val, row_lt t j⟩ k) := by
  unfold iblk3
  rw [View.read_apply]
  show V c main_v62 _ = V c main_v62 _
  refine congrArg _ (funext fun a => Fin.ext ?_)
  match a with
  | ⟨0, _⟩ => show win3_2.index t 0 * 2000 + 1 * j.val = 2000 * t.val + j.val; rw [(idx3 t).2.2.1.1]; omega
  | ⟨1, _⟩ => show win3_2.index t 1 * 1 + 1 * k.val = k.val; rw [(idx3 t).2.2.1.2]; omega

theorem blk3_6 (c : Dev nD) (t : Fin cfg3.N) (j : Fin 2000) (k : Fin 1) :
    iblk3 V c 6 t (ix2 j k) = V c main_v63 (ix2 ⟨2000 * t.val + j.val, row_lt t j⟩ k) := by
  unfold iblk3
  rw [View.read_apply]
  show V c main_v63 _ = V c main_v63 _
  refine congrArg _ (funext fun a => Fin.ext ?_)
  match a with
  | ⟨0, _⟩ => show win3_6.index t 0 * 2000 + 1 * j.val = 2000 * t.val + j.val; rw [(idx3 t).2.2.2.1.1]; omega
  | ⟨1, _⟩ => show win3_6.index t 1 * 1 + 1 * k.val = k.val; rw [(idx3 t).2.2.2.1.2]; omega

theorem blk3_3 (c : Dev nD) (t : Fin cfg3.N) (j : Fin 64) (k : Fin 64) :
    iblk3 V c 3 t (ix2 j k) = V c main_v135 (ix2 j k) := by
  unfold iblk3
  rw [View.read_apply]
  show V c main_v135 _ = V c main_v135 _
  refine congrArg _ (funext fun a => Fin.ext ?_)
  match a with
  | ⟨0, _⟩ => show win3_3.index t 0 * 64 + 1 * j.val = j.val; rw [(idx3 t).2.2.2.2.1.1]; omega
  | ⟨1, _⟩ => show win3_3.index t 1 * 64 + 1 * k.val = k.val; rw [(idx3 t).2.2.2.2.1.2]; omega

theorem blk3_4 (c : Dev nD) (t : Fin cfg3.N) (j : Fin 64) (k : Fin 64) :
    iblk3 V c 4 t (ix2 j k) = V c main_v137 (ix2 j k) := by
  unfold iblk3
  rw [View.read_apply]
  show V c main_v137 _ = V c main_v137 _
  refine congrArg _ (funext fun a => Fin.ext ?_)
  match a with
  | ⟨0, _⟩ => show win3_4.index t 0 * 64 + 1 * j.val = j.val; rw [(idx3 t).2.2.2.2.2.1.1]; omega
  | ⟨1, _⟩ => show win3_4.index t 1 * 64 + 1 * k.val = k.val; rw [(idx3 t).2.2.2.2.2.1.2]; omega

theorem blk3_5 (c : Dev nD) (t : Fin cfg3.N) (j : Fin 1) (k : Fin 64) :
    iblk3 V c 5 t (ix2 j k) = V c main_v138 (ix2 j k) := by
  unfold iblk3
  rw [View.read_apply]
  show V c main_v138 _ = V c main_v138 _
  refine congrArg _ (funext fun a => Fin.ext ?_)
  match a with
  | ⟨0, _⟩ => show win3_5.index t 0 * 1 + 1 * j.val = j.val; rw [(idx3 t).2.2.2.2.2.2.1.1]; omega
  | ⟨1, _⟩ => show win3_5.index t 1 * 64 + 1 * k.val = k.val; rw [(idx3 t).2.2.2.2.2.2.1.2]; omega

theorem blk3_7 (c : Dev nD) (t : Fin cfg3.N) (j : Fin 64) (k : Fin 32) :
    iblk3 V c 7 t (ix2 j k) = V c main_arg12 (ix2 j k) := by
  unfold iblk3
  rw [View.read_apply]
  show V c main_arg12 _ = V c main_arg12 _
  refine congrArg _ (funext fun a => Fin.ext ?_)
  match a with
  | ⟨0, _⟩ => show win3_7.index t 0 * 64 + 1 * j.val = j.val; rw [(idx3 t).2.2.2.2.2.2.2.1.1]; omega
  | ⟨1, _⟩ => show win3_7.index t 1 * 32 + 1 * k.val = k.val; rw [(idx3 t).2.2.2.2.2.2.2.1.2]; omega

theorem blk3_8 (c : Dev nD) (t : Fin cfg3.N) (j : Fin 1) (k : Fin 32) :
    iblk3 V c 8 t (ix2 j k) = V c main_v139 (ix2 j k) := by
  unfold iblk3
  rw [View.read_apply]
  show V c main_v139 _ = V c main_v139 _
  refine congrArg _ (funext fun a => Fin.ext ?_)
  match a with
  | ⟨0, _⟩ => show win3_8.index t 0 * 1 + 1 * j.val = j.val; rw [(idx3 t).2.2.2.2.2.2.2.2.1.1]; omega
  | ⟨1, _⟩ => show win3_8.index t 1 * 32 + 1 * k.val = k.val; rw [(idx3 t).2.2.2.2.2.2.2.2.1.2]; omega

theorem blk3_9 (c : Dev nD) (t : Fin cfg3.N) (j : Fin 32) (k : Fin 1) :
    iblk3 V c 9 t (ix2 j k) = V c main_arg14 (ix2 j k) := by
  unfold iblk3
  rw [View.read_apply]
  show V c main_arg14 _ = V c main_arg14 _
  refine congrArg _ (funext fun a => Fin.ext ?_)
  match a with
  | ⟨0, _⟩ => show win3_9.index t 0 * 32 + 1 * j.val = j.val; rw [(idx3 t).2.2.2.2.2.2.2.2.2.1.1]; omega
  | ⟨1, _⟩ => show win3_9.index t 1 * 1 + 1 * k.val = k.val; rw [(idx3 t).2.2.2.2.2.2.2.2.2.1.2]; omega

theorem blk3_10 (c : Dev nD) (t : Fin cfg3.N) (j : Fin 1) (k : Fin 1) :
    iblk3 V c 10 t (ix2 j k) = V c main_v140 (ix2 j k) := by
  unfold iblk3
  rw [View.read_apply]
  show V c main_v140 _ = V c main_v140 _
  refine congrArg _ (funext fun a => Fin.ext ?_)
  match a with
  | ⟨0, _⟩ => show win3_10.index t 0 * 1 + 1 * j.val = j.val; rw [(idx3 t).2.2.2.2.2.2.2.2.2.2.1.1]; omega
  | ⟨1, _⟩ => show win3_10.index t 1 * 1 + 1 * k.val = k.val; rw [(idx3 t).2.2.2.2.2.2.2.2.2.2.1.2]; omega

theorem layer_blk (c : Dev nD) (t : Fin cfg3.N) (j : Fin 2000) (q : Fin 64) :
    Cert.Spec.layerAt (R := 2000) (K := 64) (C := 64) (iblk3 V c 0 t) (iblk3 V c 1 t) (iblk3 V c 2 t) (iblk3 V c 3 t) (iblk3 V c 4 t) (iblk3 V c 5 t) j q
      = Cert.Spec.layerAt (R := 100000) (K := 64) (C := 64) (V c main_v120) (V c main_v133) (V c main_v62) (V c main_v135) (V c main_v137) (V c main_v138)
          ⟨2000 * t.val + j.val, row_lt t j⟩ q := by
  unfold Cert.Spec.layerAt
  simp only [blk3_0, blk3_1, blk3_2, blk3_3, blk3_4, blk3_5]

end Blocks

def rowTerm (bt : Cert.Spec.Col 100000) (y : Arr2 100000 64) (g : Nat) (q : Fin 64) (r : ℕ) : EReal :=
  if h : r < 100000 then (if bt (ix2 ⟨r, h⟩ 0) = BitVec.ofNat 32 g then y (ix2 ⟨r, h⟩ q) else 0) else 0

section Sums
variable (V : (c : Dev nD) → (b : Ref sig .tc) → Buf (Elt Ideal) ((c : Thread nD τ).loc b))

abbrev Y3 (c : Dev nD) : Arr2 100000 64 :=
  Cert.Spec.layer (V c main_v120) (V c main_v133) (V c main_v62) (V c main_v135) (V c main_v137) (V c main_v138)

theorem tile_sum (c : Dev nD) (t : Fin cfg3.N) (g : Fin 256) (q : Fin 64) :
    (∑ j : Fin 2000, if iblk3 V c 6 t (ix2 j 0) = BitVec.ofNat 32 g.val
        then Cert.Spec.layerAt (R := 2000) (K := 64) (C := 64) (iblk3 V c 0 t) (iblk3 V c 1 t) (iblk3 V c 2 t) (iblk3 V c 3 t) (iblk3 V c 4 t) (iblk3 V c 5 t) j q
        else 0)
      = ∑ x ∈ Finset.range 2000, rowTerm (V c main_v63) (Y3 V c) g.val q (2000 * t.val + x) := by
  rw [Finset.sum_range]
  refine Finset.sum_congr rfl fun j _ => ?_
  unfold rowTerm
  rw [dif_pos (row_lt t j), blk3_6, layer_blk]
  rfl

theorem acc3_eq (c : Dev nD) (g : Fin 256) (q : Fin 64) : ∀ (n : ℕ) (h : n < cfg3.N),
    acc3 V c n h (ix2 g q) = ∑ r ∈ Finset.range (2000 * n + 2000), rowTerm (V c main_v63) (Y3 V c) g.val q r
  | 0, h => by
    rw [acc3, pay1_eq]
    refine (pay5_apply _ _ _ _ _ _ _ _ g q).trans ?_
    rw [pay3_apply, zero_add, tile_sum V c ⟨0, h⟩ g q, Finset.sum_range_add, Nat.mul_zero, Finset.range_zero, Finset.sum_empty, zero_add]
  | n + 1, h => by
    rw [acc3, pay1_eq]
    refine (pay5_apply _ _ _ _ _ _ _ _ g q).trans ?_
    rw [acc3_eq c g q n (Nat.lt_of_succ_lt h), tile_sum V c ⟨n + 1, h⟩ g q, Finset.sum_range_add _ (2000 * (n + 1)) 2000, Nat.mul_succ]

theorem acc3_pool (c : Dev nD) (h : 49 < cfg3.N) (g : Fin 256) (q : Fin 64) :
    acc3 V c 49 h (ix2 g q) = Cert.Spec.poolAt (Y3 V c) (V c main_v63) g.val q := by
  rw [acc3_eq V c g q 49 h, show 2000 * 49 + 2000 = 100000 from rfl, Finset.sum_range]
  unfold Cert.Spec.poolAt
  refine Finset.sum_congr rfl fun r _ => ?_
  unfold rowTerm
  rw [dif_pos r.isLt]

theorem out3_last (c : Dev nD) (h : 49 < cfg3.N) (g : Fin 256) :
    out3 V c 49 h (ix2 g 0)
      = Cert.Spec.headAt (Y3 V c) (V c main_v63) (V c main_arg12) (V c main_v139) (V c main_arg14) (V c main_v140) g.val := by
  unfold out3
  rw [if_pos rfl]
  refine (pay2_apply _ _ _ _ _ g).trans ?_
  unfold Cert.Spec.headAt
  simp only [blk3_7, blk3_8, blk3_9, blk3_10, acc3_pool]

end Sums

end V3

open V3

def V3.t49 : Fin cfg3.N := ⟨49, by rw [show cfg3.N = 50 from N_3]; decide⟩

theorem final3 (V : (c : Dev nD) → (b : Ref sig .tc) → Buf (Elt Ideal) ((c : Thread nD τ).loc b)) (c : Dev nD) :
    (dat3 (F := Ideal) V c).arrAt 11 cfg3.N = Cert.Spec.head (G := 256)
      (Cert.Spec.layer (V c main_v120) (V c main_v133) (V c main_v62) (V c main_v135) (V c main_v137) (V c main_v138))
      (V c main_v63) (V c main_arg12) (V c main_v139) (V c main_arg14) (V c main_v140) := by
  have hN : cfg3.N = 50 := N_3
  refine (dat3 V c).arrAt_eq_of_cover 11 _ (fun t hf => ?_) (fun i => ?_)
  ·
    have h49 : t.val = 49 := by have := (flush3_11 t).mp hf; have := t.isLt; omega
    obtain ⟨n, hn⟩ := t
    obtain rfl : n = 49 := h49
    show (cfg3.win 11).cut (cfg3.grid.coords ⟨49, hn⟩) ((dat3 V c).after 11 ⟨49, hn⟩) = _
    rw [after3_11]
    have hz' : (fun a => win3_11.index ⟨49, hn⟩ a * main_v141.ty.shape.size a) = fun _ => 0 := funext fun a => by
      match a with
      | ⟨0, _⟩ => show win3_11.index ⟨49, hn⟩ 0 * 256 = 0; rw [(idx3 ⟨49, hn⟩).2.2.2.2.2.2.2.2.2.2.2.1]
      | ⟨1, _⟩ => show win3_11.index ⟨49, hn⟩ 1 * 1 = 0; rw [(idx3 ⟨49, hn⟩).2.2.2.2.2.2.2.2.2.2.2.2]
    refine Eq.trans ?_ (Memref.read_access_unit_zero (Elt Ideal) main_v141 hz' (fun a => by rw [congrFun hz' a]; simp) _).symm
    funext i
    obtain ⟨g, z, rfl⟩ : ∃ (g : Fin 256) (z : Fin 1), i = ix2 g z := ⟨i 0, i 1, eq_ix2 i⟩
    obtain rfl : z = 0 := Subsingleton.elim _ _
    exact (out3_last V c hn g).trans (Cert.Spec.head_apply (G := 256) _ _ _ _ _ _ g).symm
  ·
    refine ⟨t49, (flush3_11 t49).mpr rfl, ?_⟩
    show i ∈ ((View.whole main_v141).slice (win3_11.rect t49)).set
    rw [View.set_slice_whole, Rect.mem_set_unit]
    intro a
    have h0 : (i 0 : Nat) < 256 := (i 0).isLt
    have h1 : (i 1 : Nat) < 1 := (i 1).isLt
    match a with
    | ⟨0, _⟩ =>
      show win3_11.index t49 0 * 256 ≤ (i 0 : Nat) ∧ (i 0 : Nat) < win3_11.index t49 0 * 256 + 256
      rw [(idx3 t49).2.2.2.2.2.2.2.2.2.2.2.1]; omega
    | ⟨1, _⟩ =>
      show win3_11.index t49 1 * 1 ≤ (i 1 : Nat) ∧ (i 1 : Nat) < win3_11.index t49 1 * 1 + 1
      rw [(idx3 t49).2.2.2.2.2.2.2.2.2.2.2.2]; omega

end Cert.KernelIdeal.Hand

end
-- ==== Proof.RefPool.lean ====
/- The per-graph sum read at an index: the operand's entry plus the sum over the rows whose graph word is that of the row asked for. -/
import proofs.«411333_j58291296141746_2_alg».proof.ReferenceIdeal
import Idealize.ShloMosaic.Lib.ValueIdx
import Idealize.ShloMosaic.PureOps.Ideal.Laws

noncomputable section

namespace Cert.ReferenceIdeal.RefPool

open Cert.ReferenceIdeal Idealize.ShloMosaic Idealize.ShloMosaic.ValueIdx
open scoped BigOperators

variable [Facts₀]

abbrev dP := scatter_S256x64_S100000x1_S100000x64_1_0_0_1

theorem start_row (j : S100000x64.Idx) (idx : IVec S100000x1 32) :
    dP.start j idx 0 = (idx (ix2 (j 0) 0)).toInt := by
  unfold ScatterDims.start
  rw [dif_pos (show (0 : Fin 2) ∈ dP.scatterDimsToOperandDims from List.mem_singleton.mpr rfl)]
  have hsi : dP.siIdx j ⟨List.idxOf (0 : Fin 2) dP.scatterDimsToOperandDims,
      List.idxOf_lt_length_iff.2 (List.mem_singleton.mpr rfl)⟩ = ix2 (j 0) 0 := by
    funext b
    refine Fin.ext ?_
    match b with
    | ⟨0, _⟩ => rfl
    | ⟨1, _⟩ => rfl
  rw [hsi]
  rfl

theorem start_col (j : S100000x64.Idx) (idx : IVec S100000x1 32) : dP.start j idx 1 = 0 := by
  unfold ScatterDims.start
  have h : ¬ (1 : Fin 2) ∈ dP.scatterDimsToOperandDims := (by decide : ¬ (1 : Fin 2) ∈ ([0] : List (Fin 2)))
  rw [dif_neg h]

theorem window_row (j : S100000x64.Idx) : dP.window j 0 = 0 := by
  unfold ScatterDims.window
  have h : ¬ (0 : Fin 2) ∈ dP.sKept := (by decide : ¬ (0 : Fin 2) ∈ ([1] : List (Fin 2)))
  rw [dif_neg h]

theorem window_col (j : S100000x64.Idx) : dP.window j 1 = (j 1).val := by
  unfold ScatterDims.window
  have h : (1 : Fin 2) ∈ dP.sKept := (by decide : (1 : Fin 2) ∈ ([1] : List (Fin 2)))
  rw [dif_pos h]
  rfl

theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  by_cases hc : ∀ a, 0 ≤ d.start j idx a + d.window j a ∧ d.start j idx a + d.window j a < s.size a
  · rw [dif_pos hc, Option.some.injEq]
    constructor
    · intro hf a
      have ha := congrArg Fin.val (congrFun hf a)
      have := (hc a).1
      simp only at ha
      omega
    · intro hf
      funext a
      refine Fin.ext ?_
      have := hf a
      show (d.start j idx a + d.window j a).toNat = (i a).val
      omega
  · rw [dif_neg hc]
    refine ⟨fun hf => absurd hf (by simp), fun hf => absurd (fun a => ?_) hc⟩
    have := hf a
    have := (i a).isLt
    omega

theorem toInt_eq_small_iff (w : BitVec 32) (g : Nat) (hg : g < 256) : w.toInt = (g : Int) ↔ w = BitVec.ofNat 32 g := by
  have hto : (BitVec.ofNat 32 g).toInt = (g : Int) := by
    unfold BitVec.toInt
    rw [BitVec.toNat_ofNat, Nat.mod_eq_of_lt (by omega), if_pos (by omega)]
  constructor
  · intro h
    exact BitVec.eq_of_toInt_eq (h.trans hto.symm)
  · rintro rfl
    exact hto

theorem lands_iff (idx : IVec S100000x1 32) (n : Fin 100000) (b : Fin 64) (g : Fin 256) (h : Fin 64) :
    dP.resultIdx? (ix2 n b) idx = some (ix2 g h) ↔ (idx (ix2 n 0) = BitVec.ofNat 32 g.val ∧ b = h) := by
  rw [resultIdx?_eq_some_iff]
  constructor
  · intro hf
    have h0 := hf 0
    have h1 := hf 1
    rw [start_row, window_row] at h0
    rw [start_col, window_col] at h1
    refine ⟨(toInt_eq_small_iff _ g.val g.isLt).mp ?_, Fin.ext ?_⟩
    · simp only [Nat.cast_zero, add_zero] at h0
      exact h0
    · have : ((ix2 g h : S256x64.Idx) 1).val = h.val := rfl
      have : ((ix2 n b : S100000x64.Idx) 1).val = b.val := rfl
      omega
  · rintro ⟨hw, rfl⟩ a
    match a with
    | ⟨0, _⟩ =>
      show dP.start (ix2 n b) idx 0 + dP.window (ix2 n b) 0 = _
      rw [start_row, window_row]
      have := (toInt_eq_small_iff _ g.val g.isLt).mpr hw
      simp only [Nat.cast_zero, add_zero]
      exact this
    | ⟨1, _⟩ =>
      show dP.start (ix2 n b) idx 1 + dP.window (ix2 n b) 1 = _
      rw [start_col, window_col]
      simp only [zero_add]

theorem pool_sum (idx : IVec S100000x1 32) (upd : S100000x64.Idx → EReal) (g : Fin 256) (h : Fin 64)
    [DecidablePred fun j => dP.resultIdx? j idx = some (ix2 g h)] :
    ∑ j ∈ Finset.univ.filter (fun j => dP.resultIdx? j idx = some (ix2 g h)), upd j
      = ∑ n : Fin 100000, if idx (ix2 n 0) = BitVec.ofNat 32 g.val then upd (ix2 n h) else 0 := by
  rw [Finset.sum_filter, sum_idx2]
  refine Finset.sum_congr rfl fun n _ => ?_
  rw [Finset.sum_congr rfl fun b _ => if_congr (lands_iff idx n b g h) rfl rfl]
  by_cases hw : idx (ix2 n 0) = BitVec.ofNat 32 g.val
  · simp only [hw, true_and, if_true, Finset.sum_ite_eq', Finset.mem_univ]
  · simp only [hw, false_and, if_false, Finset.sum_const_zero]

theorem scatterAdd_pool_apply (x : FVec Ideal S256x64 .f32) (idx : IVec S100000x1 32) (upd : FVec Ideal S100000x64 .f32)
    (g : Fin 256) (h : Fin 64) :
    Host.scatterAdd dP x idx upd (ix2 g h)
      = x (ix2 g h) + ∑ n : Fin 100000, if idx (ix2 n 0) = BitVec.ofNat 32 g.val then upd (ix2 n h) else 0 := by
  unfold Host.scatterAdd
  rw [Ideal.hostScatterAdd_def]
  unfold Ideal.hostScatterAdd
  exact congrArg (x (ix2 g h) + ·) (@pool_sum _ idx upd g h _)

end Cert.ReferenceIdeal.RefPool

end
-- ==== Proof.RefSide.lean ====
/- The reference's last stage is the specification's function of the arguments: four layers, the per-graph sum, two dense layers. -/
import proofs.«411333_j58291296141746_2_alg».proof.Proof.RefStages
import proofs.«411333_j58291296141746_2_alg».proof.Proof.Spec
import proofs.«411333_j58291296141746_2_alg».proof.Proof.RefPool

noncomputable section

namespace Cert.ReferenceIdeal.RefSide

open Cert.ReferenceIdeal Cert.ReferenceIdeal.Read Cert.ReferenceIdeal.Gen Cert.Rows Idealize.ShloMosaic Idealize.ShloMosaic.ValueIdx
open scoped BigOperators

variable (x0 : (⟨S100000x32, .f32⟩ : BufTy).Contents (Elt Ideal)) (x1 : (⟨S2x1600000, .i32⟩ : BufTy).Contents (Elt Ideal)) (x2 : (⟨S100000, .i32⟩ : BufTy).Contents (Elt Ideal)) (x3 : (⟨S256, .f32⟩ : BufTy).Contents (Elt Ideal))
  (x4 : (⟨S2x32x64, .f32⟩ : BufTy).Contents (Elt Ideal)) (x5 : (⟨S64, .f32⟩ : BufTy).Contents (Elt Ideal)) (x6 : (⟨S2x64x64, .f32⟩ : BufTy).Contents (Elt Ideal)) (x7 : (⟨S64, .f32⟩ : BufTy).Contents (Elt Ideal))
  (x8 : (⟨S2x64x64, .f32⟩ : BufTy).Contents (Elt Ideal)) (x9 : (⟨S64, .f32⟩ : BufTy).Contents (Elt Ideal)) (x10 : (⟨S2x64x64, .f32⟩ : BufTy).Contents (Elt Ideal)) (x11 : (⟨S64, .f32⟩ : BufTy).Contents (Elt Ideal))
  (x12 : (⟨S64x32, .f32⟩ : BufTy).Contents (Elt Ideal)) (x13 : (⟨S32, .f32⟩ : BufTy).Contents (Elt Ideal)) (x14 : (⟨S32x1, .f32⟩ : BufTy).Contents (Elt Ideal)) (x15 : (⟨S1, .f32⟩ : BufTy).Contents (Elt Ideal))

/-- A stage that is the rectified sum of two row-by-matrix products and a bias row, the second product over the rows `s + d ∘ v`, is the layer. -/
theorem layer_of {K : ℕ} (v s op : Arr2 100000 K) (dg : Arr2 100000 1) (W0 W1 : Arr2 K 64) (b : Arr2 1 64) (y A B bias z : Arr2 100000 64)
    (hy : ∀ i, y i = max (A i + B i + bias i) (z i))
    (hA : ∀ r q, A (ix2 r q) = ∑ k : Fin K, v (ix2 r k) * W0 (ix2 k q))
    (hB : ∀ r q, B (ix2 r q) = ∑ k : Fin K, op (ix2 r k) * W1 (ix2 k q))
    (hop : ∀ r k, op (ix2 r k) = s (ix2 r k) + dg (ix2 r 0) * v (ix2 r k))
    (hC : ∀ r q, bias (ix2 r q) = b (ix2 0 q)) (hZ : ∀ i, z i = z32) :
    y = Cert.Spec.layer v s dg W0 W1 b := by
  funext i
  obtain ⟨r, q, rfl⟩ : ∃ (r : Fin 100000) (q : Fin 64), i = ix2 r q := ⟨i 0, i 1, eq_ix2 i⟩
  simp only [hy, hA, hB, hC, hZ, hop]
  rfl

theorem layer1_eq :
    val_main_v89 (F := Ideal) x0 x1 x2 x3 x4 x5
      = Cert.Spec.layer (R := 100000) (K := 32) (C := 64) x0 (val_main_v77 (F := Ideal) x0 x1 x2 x3) (val_main_v78 (F := Ideal) x2 x3)
          (val_main_v63 (F := Ideal) x4) (val_main_v83 (F := Ideal) x4) (val_main_v86 (F := Ideal) x5) :=
  layer_of _ _ (val_main_v81 (F := Ideal) x0 x1 x2 x3) _ _ _ _ _ (val_main_v64 (F := Ideal) x0 x4) (val_main_v84 (F := Ideal) x0 x1 x2 x3 x4)
    (val_main_v87 (F := Ideal) x5) (val_main_call3_v0 (F := Ideal))
    (fun i => by rw [val_main_v89_apply, val_main_v88_apply, val_main_v85_apply]; rfl)
    (fun r q => (val_main_v64_apply _ _ _).trans (Finset.sum_congr rfl fun k _ => by
      rw [show lidx_main_v64 (ix2 r q) k = ix2 r k from eq_ix2 _, show ridx_main_v64 (ix2 r q) k = ix2 k q from eq_ix2 _]))
    (fun r q => (val_main_v84_apply _ _ _ _ _ _).trans (Finset.sum_congr rfl fun k _ => by
      rw [show lidx_main_v84 (ix2 r q) k = ix2 r k from eq_ix2 _, show ridx_main_v84 (ix2 r q) k = ix2 k q from eq_ix2 _]))
    (fun r k => by
      rw [val_main_v81_apply, val_main_v80_apply, val_main_v79_apply, show idx_main_v79 (ix2 r k) = ix2 r 0 from eq_ix2 _]; rfl)
    (fun r q => by rw [val_main_v87_apply, show idx_main_v87 (ix2 r q) = ix2 0 q from eq_ix2 _])
    (fun i => by rw [val_main_call3_v0_apply, val_main_call3_cst_apply]; rfl)

theorem layer2_eq :
    val_main_v117 (F := Ideal) x0 x1 x2 x3 x4 x5 x6 x7
      = Cert.Spec.layer (R := 100000) (K := 64) (C := 64) (val_main_v89 (F := Ideal) x0 x1 x2 x3 x4 x5) (val_main_v105 (F := Ideal) x0 x1 x2 x3 x4 x5) (val_main_v106 (F := Ideal) x2 x3)
          (val_main_v91 (F := Ideal) x6) (val_main_v111 (F := Ideal) x6) (val_main_v114 (F := Ideal) x7) :=
  layer_of _ _ (val_main_v109 (F := Ideal) x0 x1 x2 x3 x4 x5) _ _ _ _ _ (val_main_v92 (F := Ideal) x0 x1 x2 x3 x4 x5 x6) (val_main_v112 (F := Ideal) x0 x1 x2 x3 x4 x5 x6)
    (val_main_v115 (F := Ideal) x7) (val_main_call4_v0 (F := Ideal))
    (fun i => by rw [val_main_v117_apply, val_main_v116_apply, val_main_v113_apply]; rfl)
    (fun r q => (val_main_v92_apply _ _ _ _ _ _ _ _).trans (Finset.sum_congr rfl fun k _ => by
      rw [show lidx_main_v92 (ix2 r q) k = ix2 r k from eq_ix2 _, show ridx_main_v92 (ix2 r q) k = ix2 k q from eq_ix2 _]))
    (fun r q => (val_main_v112_apply _ _ _ _ _ _ _ _).trans (Finset.sum_congr rfl fun k _ => by
      rw [show lidx_main_v112 (ix2 r q) k = ix2 r k from eq_ix2 _, show ridx_main_v112 (ix2 r q) k = ix2 k q from eq_ix2 _]))
    (fun r k => by
      rw [val_main_v109_apply, val_main_v108_apply, val_main_v107_apply, show idx_main_v107 (ix2 r k) = ix2 r 0 from eq_ix2 _]; rfl)
    (fun r q => by rw [val_main_v115_apply, show idx_main_v115 (ix2 r q) = ix2 0 q from eq_ix2 _])
    (fun i => by rw [val_main_call4_v0_apply, val_main_call4_cst_apply]; rfl)

theorem layer3_eq :
    val_main_v145 (F := Ideal) x0 x1 x2 x3 x4 x5 x6 x7 x8 x9
      = Cert.Spec.layer (R := 100000) (K := 64) (C := 64) (val_main_v117 (F := Ideal) x0 x1 x2 x3 x4 x5 x6 x7) (val_main_v133 (F := Ideal) x0 x1 x2 x3 x4 x5 x6 x7) (val_main_v134 (F := Ideal) x2 x3)
          (val_main_v119 (F := Ideal) x8) (val_main_v139 (F := Ideal) x8) (val_main_v142 (F := Ideal) x9) :=
  layer_of _ _ (val_main_v137 (F := Ideal) x0 x1 x2 x3 x4 x5 x6 x7) _ _ _ _ _ (val_main_v120 (F := Ideal) x0 x1 x2 x3 x4 x5 x6 x7 x8) (val_main_v140 (F := Ideal) x0 x1 x2 x3 x4 x5 x6 x7 x8)
    (val_main_v143 (F := Ideal) x9) (val_main_call5_v0 (F := Ideal))
    (fun i => by rw [val_main_v145_apply, val_main_v144_apply, val_main_v141_apply]; rfl)
    (fun r q => (val_main_v120_apply _ _ _ _ _ _ _ _ _ _).trans (Finset.sum_congr rfl fun k _ => by
      rw [show lidx_main_v120 (ix2 r q) k = ix2 r k from eq_ix2 _, show ridx_main_v120 (ix2 r q) k = ix2 k q from eq_ix2 _]))
    (fun r q => (val_main_v140_apply _ _ _ _ _ _ _ _ _ _).trans (Finset.sum_congr rfl fun k _ => by
      rw [show lidx_main_v140 (ix2 r q) k = ix2 r k from eq_ix2 _, show ridx_main_v140 (ix2 r q) k = ix2 k q from eq_ix2 _]))
    (fun r k => by
      rw [val_main_v137_apply, val_main_v136_apply, val_main_v135_apply, show idx_main_v135 (ix2 r k) = ix2 r 0 from eq_ix2 _]; rfl)
    (fun r q => by rw [val_main_v143_apply, show idx_main_v143 (ix2 r q) = ix2 0 q from eq_ix2 _])
    (fun i => by rw [val_main_call5_v0_apply, val_main_call5_cst_apply]; rfl)

theorem layer4_eq :
    val_main_v173 (F := Ideal) x0 x1 x2 x3 x4 x5 x6 x7 x8 x9 x10 x11
      = Cert.Spec.layer (R := 100000) (K := 64) (C := 64) (val_main_v145 (F := Ideal) x0 x1 x2 x3 x4 x5 x6 x7 x8 x9) (val_main_v161 (F := Ideal) x0 x1 x2 x3 x4 x5 x6 x7 x8 x9) (val_main_v162 (F := Ideal) x2 x3)
          (val_main_v147 (F := Ideal) x10) (val_main_v167 (F := Ideal) x10) (val_main_v170 (F := Ideal) x11) :=
  layer_of _ _ (val_main_v165 (F := Ideal) x0 x1 x2 x3 x4 x5 x6 x7 x8 x9) _ _ _ _ _ (val_main_v148 (F := Ideal) x0 x1 x2 x3 x4 x5 x6 x7 x8 x9 x10) (val_main_v168 (F := Ideal) x0 x1 x2 x3 x4 x5 x6 x7 x8 x9 x10)
    (val_main_v171 (F := Ideal) x11) (val_main_call6_v0 (F := Ideal))
    (fun i => by rw [val_main_v173_apply, val_main_v172_apply, val_main_v169_apply]; rfl)
    (fun r q => (val_main_v148_apply _ _ _ _ _ _ _ _ _ _ _ _).trans (Finset.sum_congr rfl fun k _ => by
      rw [show lidx_main_v148 (ix2 r q) k = ix2 r k from eq_ix2 _, show ridx_main_v148 (ix2 r q) k = ix2 k q from eq_ix2 _]))
    (fun r q => (val_main_v168_apply _ _ _ _ _ _ _ _ _ _ _ _).trans (Finset.sum_congr rfl fun k _ => by
      rw [show lidx_main_v168 (ix2 r q) k = ix2 r k from eq_ix2 _, show ridx_main_v168 (ix2 r q) k = ix2 k q from eq_ix2 _]))
    (fun r k => by
      rw [val_main_v165_apply, val_main_v164_apply, val_main_v163_apply, show idx_main_v163 (ix2 r k) = ix2 r 0 from eq_ix2 _]; rfl)
    (fun r q => by rw [val_main_v171_apply, show idx_main_v171 (ix2 r q) = ix2 0 q from eq_ix2 _])
    (fun i => by rw [val_main_call6_v0_apply, val_main_call6_cst_apply]; rfl)

theorem pool_read (g : Fin 256) (h : Fin 64) :
    val_main_v176 (F := Ideal) x0 x1 x2 x3 x4 x5 x6 x7 x8 x9 x10 x11 (ix2 g h)
      = Cert.Spec.poolAt (N := 100000) (H := 64) (val_main_v173 (F := Ideal) x0 x1 x2 x3 x4 x5 x6 x7 x8 x9 x10 x11) (val_main_v175 (F := Ideal) x2) g.val h := by
  unfold val_main_v176
  refine (RefPool.scatterAdd_pool_apply _ _ _ g h).trans ?_
  rw [val_main_v174_apply, val_main_cst_30_apply, Ideal.ofBits_def, Ideal.ofBits_zero_f32, zero_add]
  generalize val_main_v173 (F := Ideal) x0 x1 x2 x3 x4 x5 x6 x7 x8 x9 x10 x11 = y
  generalize val_main_v175 (F := Ideal) x2 = bt
  rfl

theorem head_eq :
    val_main_v185 (F := Ideal) x0 x1 x2 x3 x4 x5 x6 x7 x8 x9 x10 x11 x12 x13 x14 x15
      = Cert.Spec.head (N := 100000) (H := 64) (M := 32) (G := 256) (val_main_v173 (F := Ideal) x0 x1 x2 x3 x4 x5 x6 x7 x8 x9 x10 x11) (val_main_v175 (F := Ideal) x2) x12
          (val_main_v178 (F := Ideal) x13) x14 (val_main_v183 (F := Ideal) x15) := by
  funext i
  obtain ⟨g, c, rfl⟩ : ∃ (g : Fin 256) (c : Fin 1), i = ix2 g c := ⟨i 0, i 1, eq_ix2 i⟩
  obtain rfl : c = 0 := Subsingleton.elim _ _

  have e0 : ∀ j : Fin 32, lidx_main_v182 (ix2 g 0) j = ix2 g j := fun j => eq_ix2 _
  have e1 : ∀ j : Fin 32, ridx_main_v182 (ix2 g 0) j = ix2 j 0 := fun j => eq_ix2 _
  have e2 : ∀ (j : Fin 32) (h : Fin 64), lidx_main_v177 (ix2 g j) h = ix2 g h := fun j h => eq_ix2 _
  have e3 : ∀ (j : Fin 32) (h : Fin 64), ridx_main_v177 (ix2 g j) h = ix2 h j := fun j h => eq_ix2 _
  have e4 : ∀ j : Fin 32, idx_main_v179 (ix2 g j) = ix2 0 j := fun j => eq_ix2 _
  have e5 : idx_main_v184 (ix2 g 0) = ix2 0 0 := eq_ix2 _

  have hA : ∀ j : Fin 32, val_main_v177 (F := Ideal) x0 x1 x2 x3 x4 x5 x6 x7 x8 x9 x10 x11 x12 (ix2 g j)
      = ∑ h : Fin 64, Cert.Spec.poolAt (N := 100000) (H := 64) (val_main_v173 (F := Ideal) x0 x1 x2 x3 x4 x5 x6 x7 x8 x9 x10 x11) (val_main_v175 (F := Ideal) x2) g.val h * x12 (ix2 h j) := by
    intro j
    rw [val_main_v177_apply]
    exact Finset.sum_congr rfl fun h _ => by rw [e2 j h, e3 j h, pool_read]

  have hR : ∀ j : Fin 32, val_main_v181 (F := Ideal) x0 x1 x2 x3 x4 x5 x6 x7 x8 x9 x10 x11 x12 x13 (ix2 g j)
      = max ((∑ h : Fin 64, Cert.Spec.poolAt (N := 100000) (H := 64) (val_main_v173 (F := Ideal) x0 x1 x2 x3 x4 x5 x6 x7 x8 x9 x10 x11) (val_main_v175 (F := Ideal) x2) g.val h * x12 (ix2 h j))
          + val_main_v178 (F := Ideal) x13 (ix2 0 j)) z32 := by
    intro j
    rw [val_main_v181_apply, val_main_v180_apply, hA j, val_main_v179_apply, e4 j, val_main_call7_v0_apply,
      val_main_call7_cst_apply]
    generalize val_main_v173 (F := Ideal) x0 x1 x2 x3 x4 x5 x6 x7 x8 x9 x10 x11 = y
    generalize val_main_v175 (F := Ideal) x2 = bt
    generalize val_main_v178 (F := Ideal) x13 = a
    rfl

  rw [val_main_v185_apply, val_main_v182_apply, val_main_v184_apply, e5,
    Finset.sum_congr rfl fun j _ => by rw [e0 j, e1 j, hR j]]
  generalize val_main_v173 (F := Ideal) x0 x1 x2 x3 x4 x5 x6 x7 x8 x9 x10 x11 = y
  generalize val_main_v175 (F := Ideal) x2 = bt
  generalize val_main_v178 (F := Ideal) x13 = a
  generalize val_main_v183 (F := Ideal) x15 = β
  rfl

end Cert.ReferenceIdeal.RefSide

end
-- ==== Proof.BridgeLay.lean ====
/- A vector laid out as a column or as a one-row matrix, by a reshape or by a broadcast along the unit axis: the same array. -/
import proofs.«411333_j58291296141746_2_alg».proof.KernelIdeal
import proofs.«411333_j58291296141746_2_alg».proof.ReferenceIdeal
import Idealize.ShloMosaic.Lib.Pipeline.Value
import Idealize.ShloMosaic.Lib.ValueIdx
import Idealize.ShloMosaic.Lib.ValueLayout

noncomputable section

namespace Cert.Bridge.Lay

open Idealize.ShloMosaic Idealize.ShloMosaic.ValueIdx

theorem col_any {α : Type} {N : Nat} (x : (⟨1, ![N]⟩ : Shape).Idx → α)
    (hk : (⟨1, ![N]⟩ : Shape).ShapeCasts ⟨2, ![N, 1]⟩)
    (hr : (⟨1, ![N]⟩ : Shape).BroadcastsInDim ⟨2, ![N, 1]⟩ (![0] : Fin 1 → Fin 2)) :
    shapeCast ⟨2, ![N, 1]⟩ x hk = broadcastInDim ⟨2, ![N, 1]⟩ ![0] hr x := by
  funext i
  obtain ⟨a, b, rfl⟩ : ∃ (a : Fin N) (b : Fin 1), i = ix2 a b := ⟨i 0, i 1, eq_ix2 i⟩
  have hb := b.isLt
  have ha := a.isLt
  refine (shapeCast_apply x hk (ix2 a b) (ix1 a) ?_).trans (broadcastInDim_apply ![0] hr x (ix2 a b) (ix1 a) fun ax => ?_).symm
  · rw [Shape.rowMajor_val_one, Shape.rowMajor_val_two]
    show a.val = a.val * 1 + b.val
    omega
  · match ax with
    | ⟨0, _⟩ =>
      show a.val = if N = 1 then 0 else a.val
      split_ifs with hN <;> omega

theorem row_any {α : Type} {C : Nat} (x : (⟨1, ![C]⟩ : Shape).Idx → α)
    (hk : (⟨1, ![C]⟩ : Shape).ShapeCasts ⟨2, ![1, C]⟩)
    (hr : (⟨1, ![C]⟩ : Shape).BroadcastsInDim ⟨2, ![1, C]⟩ (![1] : Fin 1 → Fin 2)) :
    shapeCast ⟨2, ![1, C]⟩ x hk = broadcastInDim ⟨2, ![1, C]⟩ ![1] hr x := by
  funext i
  obtain ⟨a, b, rfl⟩ : ∃ (a : Fin 1) (b : Fin C), i = ix2 a b := ⟨i 0, i 1, eq_ix2 i⟩
  have ha := a.isLt
  have hb := b.isLt
  refine (shapeCast_apply x hk (ix2 a b) (ix1 b) ?_).trans (broadcastInDim_apply ![1] hr x (ix2 a b) (ix1 b) fun ax => ?_).symm
  · rw [Shape.rowMajor_val_one, Shape.rowMajor_val_two]
    show b.val = a.val * C + b.val
    have : a.val = 0 := by omega
    rw [this]; omega
  · match ax with
    | ⟨0, _⟩ =>
      show b.val = if C = 1 then 0 else b.val
      split_ifs with hC <;> omega

variable {F : FTy → Type} [FloatOps F]

theorem col_f32 (x : (⟨Cert.KernelIdeal.S100000, .f32⟩ : BufTy).Contents (Elt F))
    (hk : Cert.KernelIdeal.S100000.ShapeCasts Cert.KernelIdeal.S100000x1 := by decide)
    (hr : Cert.ReferenceIdeal.S100000.BroadcastsInDim Cert.ReferenceIdeal.S100000x1
      (![0] : Fin 1 → Fin Cert.ReferenceIdeal.S100000x1.rank) := by decide) :
    shapeCast Cert.KernelIdeal.S100000x1 x hk = broadcastInDim Cert.ReferenceIdeal.S100000x1 ![0] hr x :=
  col_any x hk hr

theorem col_i32 (x : (⟨Cert.KernelIdeal.S100000, .i32⟩ : BufTy).Contents (Elt F))
    (hk : Cert.KernelIdeal.S100000.ShapeCasts Cert.KernelIdeal.S100000x1 := by decide)
    (hr : Cert.ReferenceIdeal.S100000.BroadcastsInDim Cert.ReferenceIdeal.S100000x1
      (![0] : Fin 1 → Fin Cert.ReferenceIdeal.S100000x1.rank) := by decide) :
    shapeCast Cert.KernelIdeal.S100000x1 x hk = broadcastInDim Cert.ReferenceIdeal.S100000x1 ![0] hr x :=
  col_any x hk hr

theorem row64 (x : (⟨Cert.KernelIdeal.S64, .f32⟩ : BufTy).Contents (Elt F))
    (hk : Cert.KernelIdeal.S64.ShapeCasts Cert.KernelIdeal.S1x64 := by decide)
    (hr : Cert.ReferenceIdeal.S64.BroadcastsInDim Cert.ReferenceIdeal.S1x64
      (![1] : Fin 1 → Fin Cert.ReferenceIdeal.S1x64.rank) := by decide) :
    shapeCast Cert.KernelIdeal.S1x64 x hk = broadcastInDim Cert.ReferenceIdeal.S1x64 ![1] hr x :=
  row_any x hk hr

theorem row32 (x : (⟨Cert.KernelIdeal.S32, .f32⟩ : BufTy).Contents (Elt F))
    (hk : Cert.KernelIdeal.S32.ShapeCasts Cert.KernelIdeal.S1x32 := by decide)
    (hr : Cert.ReferenceIdeal.S32.BroadcastsInDim Cert.ReferenceIdeal.S1x32
      (![1] : Fin 1 → Fin Cert.ReferenceIdeal.S1x32.rank) := by decide) :
    shapeCast Cert.KernelIdeal.S1x32 x hk = broadcastInDim Cert.ReferenceIdeal.S1x32 ![1] hr x :=
  row_any x hk hr

theorem row1 (x : (⟨Cert.KernelIdeal.S1, .f32⟩ : BufTy).Contents (Elt F))
    (hk : Cert.KernelIdeal.S1.ShapeCasts Cert.KernelIdeal.S1x1 := by decide)
    (hr : Cert.ReferenceIdeal.S1.BroadcastsInDim Cert.ReferenceIdeal.S1x1
      (![1] : Fin 1 → Fin Cert.ReferenceIdeal.S1x1.rank) := by decide) :
    shapeCast Cert.KernelIdeal.S1x1 x hk = broadcastInDim Cert.ReferenceIdeal.S1x1 ![1] hr x :=
  row_any x hk hr

example (x : (⟨Cert.KernelIdeal.S64, .f32⟩ : BufTy).Contents (Elt F)) :
    shapeCast Cert.KernelIdeal.S1x64 x (by decide) = broadcastInDim Cert.ReferenceIdeal.S1x64 ![1] (by decide) x := row64 x

end Cert.Bridge.Lay

end
-- ==== Proof.Bridge.lean ====
/- Each region is entered with the reference's stages of the shared host operations, so its result array is the reference's stage after that layer; the last region's is the reference's result. -/
import proofs.«411333_j58291296141746_2_alg».proof.Proof.KI.Fold
import proofs.«411333_j58291296141746_2_alg».proof.Proof.KI.Val0
import proofs.«411333_j58291296141746_2_alg».proof.Proof.KI.Val1
import proofs.«411333_j58291296141746_2_alg».proof.Proof.KI.Val2
import proofs.«411333_j58291296141746_2_alg».proof.Proof.KI.Val3
import proofs.«411333_j58291296141746_2_alg».proof.Proof.Spec
import proofs.«411333_j58291296141746_2_alg».proof.Proof.RefSide
import proofs.«411333_j58291296141746_2_alg».proof.Proof.BridgeLay
import Idealize.ShloMosaic.Lib.StableHlo.Run
import Idealize.ShloMosaic.Lib.Pipeline.Value
import Idealize.ShloMosaic.Lib.ValueIdx
import Idealize.ShloMosaic.Lib.ValueLayout

noncomputable section

namespace Cert.Bridge

open Cert.KernelIdeal Cert.KernelIdeal.Gen Cert.KernelIdeal.Hand
open Idealize.ShloMosaic Idealize.ShloMosaic.TcCoe Idealize.SL.Sem Idealize.ShloMosaic.StableHlo
open Cert.ReferenceIdeal.Read

section Prefix
variable {F : FTy → Type} [FloatOps F]
variable (m : (ℓ : Loc nD τ sig) → Buf (Elt F) ℓ) (ρ : Dev nD → PrngReg) (c : Dev nD)

abbrev L (r : Ref sig .tc) : Buf (Elt F) ((c.tc : Thread nD τ).loc r) := m ((c.tc : Thread nD τ).loc r)

/-- The first region's entry contents are the launch memory after the seven host stretches before it. -/
theorem W7_eq : W7 m ρ c = StableHlo.after hostOps0_6 (StableHlo.after hostOps0_5 (StableHlo.after hostOps0_4 (StableHlo.after hostOps0_3
    (StableHlo.after hostOps0_2 (StableHlo.after hostOps0_1 (StableHlo.after hostOps0 (W0 m ρ c))))))) := rfl

set_option maxHeartbeats 1000000 in
theorem W7_v1 : W7 m ρ c (Proc.devRef .tc main_v1) = val_main_v1 (F := F) (L m c main_arg1) := by
  rw [W7_eq]
  after_results_simp
  rfl

set_option maxHeartbeats 1000000 in
theorem W7_v3 : W7 m ρ c (Proc.devRef .tc main_v3) = val_main_v3 (F := F) (L m c main_arg1) := by
  rw [W7_eq]
  after_results_simp
  rfl

set_option maxHeartbeats 1000000 in
theorem W7_v52 : W7 m ρ c (Proc.devRef .tc main_v52) = val_main_v52 (F := F) (L m c main_arg1) (L m c main_arg2) (L m c main_arg3) := by
  rw [W7_eq]
  after_results_simp
  rfl

set_option maxHeartbeats 1000000 in
theorem W7_v76 : W7 m ρ c (Proc.devRef .tc main_v76) = val_main_v77 (F := F) (L m c main_arg0) (L m c main_arg1) (L m c main_arg2) (L m c main_arg3) := by
  rw [W7_eq]
  after_results_simp
  rfl

set_option maxHeartbeats 1000000 in
theorem W7_v78 : W7 m ρ c (Proc.devRef .tc main_v78) = val_main_v63 (F := F) (L m c main_arg4) := by
  rw [W7_eq]
  after_results_simp
  rfl

set_option maxHeartbeats 1000000 in
theorem W7_v80 : W7 m ρ c (Proc.devRef .tc main_v80) = val_main_v83 (F := F) (L m c main_arg4) := by
  rw [W7_eq]
  after_results_simp
  rfl

set_option maxHeartbeats 1000000 in
theorem W7_v62 : W7 m ρ c (Proc.devRef .tc main_v62)
    = shapeCast S100000x1 (val_main_v61 (F := F) (L m c main_arg2) (L m c main_arg3)) shapeCasts_S100000_S100000x1 := by
  rw [W7_eq]
  after_results_simp
  rfl

set_option maxHeartbeats 1000000 in
theorem W7_v63 : W7 m ρ c (Proc.devRef .tc main_v63) = shapeCast S100000x1 (L m c main_arg2) shapeCasts_S100000_S100000x1 := by
  rw [W7_eq]
  after_results_simp
  rfl

set_option maxHeartbeats 1000000 in
theorem W7_v81 : W7 m ρ c (Proc.devRef .tc main_v81) = shapeCast S1x64 (L m c main_arg5) shapeCasts_S64_S1x64 := by
  rw [W7_eq]
  after_results_simp
  rfl

abbrev prefixW : List (Ref sig .tc) :=
  hostOps0_W ++ hostOps0_1_W ++ hostOps0_2_W ++ hostOps0_3_W ++ hostOps0_4_W ++ hostOps0_5_W ++ hostOps0_6_W

theorem W7_launch (r : Ref sig .tc) (h : r ∉ prefixW) : W7 m ρ c (Proc.devRef .tc r) = L m c r := by
  simp only [prefixW, List.mem_append, not_or] at h
  obtain ⟨⟨⟨⟨⟨⟨a0, a1⟩, a2⟩, a3⟩, a4⟩, a5⟩, a6⟩ := h
  calc W7 m ρ c (Proc.devRef .tc r)
    _ = W6 m ρ c (Proc.devRef .tc r) := W7_of m ρ c r a6
    _ = W5 m ρ c (Proc.devRef .tc r) := W6_of m ρ c r a5
    _ = W4 m ρ c (Proc.devRef .tc r) := W5_of m ρ c r a4
    _ = W3 m ρ c (Proc.devRef .tc r) := W4_of m ρ c r a3
    _ = W2 m ρ c (Proc.devRef .tc r) := W3_of m ρ c r a2
    _ = W1 m ρ c (Proc.devRef .tc r) := W2_of m ρ c r a1
    _ = W0 m ρ c (Proc.devRef .tc r) := W1_of m ρ c r a0
    _ = L m c r := rfl

theorem W9_W7 (r : Ref sig .tc) (b1 : r ∉ hostOps1_W) (h0 : Pipeline.arrRef spec0 6 ≠ r) :
    W9 m ρ c (Proc.devRef .tc r) = W7 m ρ c (Proc.devRef .tc r) :=
  (W9_of m ρ c r b1).trans (W8_keep m ρ c r h0)

theorem W10_W7 (r : Ref sig .tc) (b1 : r ∉ hostOps1_W) (h0 : Pipeline.arrRef spec0 6 ≠ r) (h1 : Pipeline.arrRef spec1 6 ≠ r) :
    W10 m ρ c (Proc.devRef .tc r) = W7 m ρ c (Proc.devRef .tc r) :=
  (W10_keep m ρ c r h1).trans (W9_W7 m ρ c r b1 h0)

theorem W11_W7 (r : Ref sig .tc) (b1 : r ∉ hostOps1_W) (b2 : r ∉ hostOps2_W) (h0 : Pipeline.arrRef spec0 6 ≠ r)
    (h1 : Pipeline.arrRef spec1 6 ≠ r) : W11 m ρ c (Proc.devRef .tc r) = W7 m ρ c (Proc.devRef .tc r) :=
  (W11_of m ρ c r b2).trans (W10_W7 m ρ c r b1 h0 h1)

theorem W12_W7 (r : Ref sig .tc) (b1 : r ∉ hostOps1_W) (b2 : r ∉ hostOps2_W) (h0 : Pipeline.arrRef spec0 6 ≠ r)
    (h1 : Pipeline.arrRef spec1 6 ≠ r) (h2 : Pipeline.arrRef spec2 6 ≠ r) :
    W12 m ρ c (Proc.devRef .tc r) = W7 m ρ c (Proc.devRef .tc r) :=
  (W12_keep m ρ c r h2).trans (W11_W7 m ρ c r b1 b2 h0 h1)

theorem W13_W7 (r : Ref sig .tc) (b1 : r ∉ hostOps1_W) (b2 : r ∉ hostOps2_W) (b3 : r ∉ hostOps3_W)
    (h0 : Pipeline.arrRef spec0 6 ≠ r) (h1 : Pipeline.arrRef spec1 6 ≠ r) (h2 : Pipeline.arrRef spec2 6 ≠ r) :
    W13 m ρ c (Proc.devRef .tc r) = W7 m ρ c (Proc.devRef .tc r) :=
  (W13_of m ρ c r b3).trans (W12_W7 m ρ c r b1 b2 h0 h1 h2)

theorem W7_dcol : W7 m ρ c (Proc.devRef .tc main_v62) = val_main_v78 (F := F) (L m c main_arg2) (L m c main_arg3) :=
  (W7_v62 m ρ c).trans (Lay.col_f32 _ _ _)

theorem W7_bcol : W7 m ρ c (Proc.devRef .tc main_v63) = val_main_v175 (F := F) (L m c main_arg2) :=
  (W7_v63 m ρ c).trans (Lay.col_i32 _ _ _)

theorem W7_brow : W7 m ρ c (Proc.devRef .tc main_v81) = val_main_v86 (F := F) (L m c main_arg5) :=
  (W7_v81 m ρ c).trans (Lay.row64 _ _ _)

variable (Wp : Valuation τ sig (Elt F)) (x0 : (⟨S100000x32, .f32⟩ : BufTy).Contents (Elt F)) (x1 : (⟨S2x1600000, .i32⟩ : BufTy).Contents (Elt F)) (x2 : (⟨S100000, .i32⟩ : BufTy).Contents (Elt F)) (x3 : (⟨S256, .f32⟩ : BufTy).Contents (Elt F)) (x4 : (⟨S2x32x64, .f32⟩ : BufTy).Contents (Elt F)) (x5 : (⟨S64, .f32⟩ : BufTy).Contents (Elt F)) (x6 : (⟨S2x64x64, .f32⟩ : BufTy).Contents (Elt F)) (x7 : (⟨S64, .f32⟩ : BufTy).Contents (Elt F)) (x8 : (⟨S2x64x64, .f32⟩ : BufTy).Contents (Elt F)) (x9 : (⟨S64, .f32⟩ : BufTy).Contents (Elt F)) (x10 : (⟨S2x64x64, .f32⟩ : BufTy).Contents (Elt F)) (x11 : (⟨S64, .f32⟩ : BufTy).Contents (Elt F)) (x12 : (⟨S64x32, .f32⟩ : BufTy).Contents (Elt F)) (x13 : (⟨S32, .f32⟩ : BufTy).Contents (Elt F)) (x14 : (⟨S32x1, .f32⟩ : BufTy).Contents (Elt F)) (x15 : (⟨S1, .f32⟩ : BufTy).Contents (Elt F))

set_option maxHeartbeats 1000000 in
theorem hostOps1_sums
    (hy : Wp (Proc.devRef .tc main_v82) = val_main_v89 (F := F) x0 x1 x2 x3 x4 x5)
    (h52 : Wp (Proc.devRef .tc main_v52) = val_main_v52 (F := F) x1 x2 x3)
    (h1 : Wp (Proc.devRef .tc main_v1) = val_main_v1 (F := F) x1) (h3 : Wp (Proc.devRef .tc main_v3) = val_main_v3 (F := F) x1) :
    StableHlo.after hostOps1 Wp (Proc.devRef .tc main_v95) = val_main_v105 (F := F) x0 x1 x2 x3 x4 x5 := by
  after_results_simp
  rw [hy, h52, h1, h3]
  rfl

theorem hostOps1_w0 (hw : Wp (Proc.devRef .tc main_arg6) = x6) :
    StableHlo.after hostOps1 Wp (Proc.devRef .tc main_v97) = val_main_v91 (F := F) x6 := by
  after_results
  rw [hw]
  rfl

theorem hostOps1_w1 (hw : Wp (Proc.devRef .tc main_arg6) = x6) :
    StableHlo.after hostOps1 Wp (Proc.devRef .tc main_v99) = val_main_v111 (F := F) x6 := by
  after_results
  rw [hw]
  rfl

theorem hostOps1_bias (hb : Wp (Proc.devRef .tc main_arg7) = x7) :
    StableHlo.after hostOps1 Wp (Proc.devRef .tc main_v100) = shapeCast S1x64 x7 shapeCasts_S64_S1x64 := by
  after_results
  rw [hb]
  rfl

set_option maxHeartbeats 1000000 in
theorem hostOps2_sums
    (hy : Wp (Proc.devRef .tc main_v101) = val_main_v117 (F := F) x0 x1 x2 x3 x4 x5 x6 x7)
    (h52 : Wp (Proc.devRef .tc main_v52) = val_main_v52 (F := F) x1 x2 x3)
    (h1 : Wp (Proc.devRef .tc main_v1) = val_main_v1 (F := F) x1) (h3 : Wp (Proc.devRef .tc main_v3) = val_main_v3 (F := F) x1) :
    StableHlo.after hostOps2 Wp (Proc.devRef .tc main_v114) = val_main_v133 (F := F) x0 x1 x2 x3 x4 x5 x6 x7 := by
  after_results_simp
  rw [hy, h52, h1, h3]
  rfl

theorem hostOps2_w0 (hw : Wp (Proc.devRef .tc main_arg8) = x8) :
    StableHlo.after hostOps2 Wp (Proc.devRef .tc main_v116) = val_main_v119 (F := F) x8 := by
  after_results
  rw [hw]
  rfl

theorem hostOps2_w1 (hw : Wp (Proc.devRef .tc main_arg8) = x8) :
    StableHlo.after hostOps2 Wp (Proc.devRef .tc main_v118) = val_main_v139 (F := F) x8 := by
  after_results
  rw [hw]
  rfl

theorem hostOps2_bias (hb : Wp (Proc.devRef .tc main_arg9) = x9) :
    StableHlo.after hostOps2 Wp (Proc.devRef .tc main_v119) = shapeCast S1x64 x9 shapeCasts_S64_S1x64 := by
  after_results
  rw [hb]
  rfl

set_option maxHeartbeats 1000000 in
theorem hostOps3_sums
    (hy : Wp (Proc.devRef .tc main_v120) = val_main_v145 (F := F) x0 x1 x2 x3 x4 x5 x6 x7 x8 x9)
    (h52 : Wp (Proc.devRef .tc main_v52) = val_main_v52 (F := F) x1 x2 x3)
    (h1 : Wp (Proc.devRef .tc main_v1) = val_main_v1 (F := F) x1) (h3 : Wp (Proc.devRef .tc main_v3) = val_main_v3 (F := F) x1) :
    StableHlo.after hostOps3 Wp (Proc.devRef .tc main_v133) = val_main_v161 (F := F) x0 x1 x2 x3 x4 x5 x6 x7 x8 x9 := by
  after_results_simp
  rw [hy, h52, h1, h3]
  rfl

theorem hostOps3_w0 (hw : Wp (Proc.devRef .tc main_arg10) = x10) :
    StableHlo.after hostOps3 Wp (Proc.devRef .tc main_v135) = val_main_v147 (F := F) x10 := by
  after_results
  rw [hw]
  rfl

theorem hostOps3_w1 (hw : Wp (Proc.devRef .tc main_arg10) = x10) :
    StableHlo.after hostOps3 Wp (Proc.devRef .tc main_v137) = val_main_v167 (F := F) x10 := by
  after_results
  rw [hw]
  rfl

theorem hostOps3_bias (hb : Wp (Proc.devRef .tc main_arg11) = x11) :
    StableHlo.after hostOps3 Wp (Proc.devRef .tc main_v138) = shapeCast S1x64 x11 shapeCasts_S64_S1x64 := by
  after_results
  rw [hb]
  rfl

theorem hostOps3_hb1 (hb : Wp (Proc.devRef .tc main_arg13) = x13) :
    StableHlo.after hostOps3 Wp (Proc.devRef .tc main_v139) = shapeCast S1x32 x13 shapeCasts_S32_S1x32 := by
  after_results
  rw [hb]
  rfl

theorem hostOps3_hb2 (hb : Wp (Proc.devRef .tc main_arg15) = x15) :
    StableHlo.after hostOps3 Wp (Proc.devRef .tc main_v140) = shapeCast S1x1 x15 shapeCasts_S1_S1x1 := by
  after_results
  rw [hb]
  rfl

end Prefix

section Chain
open Cert.ReferenceIdeal.RefSide

variable (m : (ℓ : Loc nD τ sig) → Buf (Elt Ideal) ℓ) (ρ : Dev nD → PrngReg) (c : Dev nD)

theorem out1 :
    W8 m ρ c (Proc.devRef .tc main_v82) = val_main_v89 (F := Ideal) (L m c main_arg0) (L m c main_arg1) (L m c main_arg2) (L m c main_arg3) (L m c main_arg4) (L m c main_arg5) := by
  have h0 := final0 (V7 m ρ) c
  have e0 : V7 m ρ c main_arg0 = (L m c main_arg0) := W7_launch m ρ c main_arg0 (by decide)
  have e1 : V7 m ρ c main_v76 = val_main_v77 (F := Ideal) (L m c main_arg0) (L m c main_arg1) (L m c main_arg2) (L m c main_arg3) := W7_v76 m ρ c
  have e2 : V7 m ρ c main_v62 = val_main_v78 (F := Ideal) (L m c main_arg2) (L m c main_arg3) := W7_dcol m ρ c
  have e3 : V7 m ρ c main_v78 = val_main_v63 (F := Ideal) (L m c main_arg4) := W7_v78 m ρ c
  have e4 : V7 m ρ c main_v80 = val_main_v83 (F := Ideal) (L m c main_arg4) := W7_v80 m ρ c
  have e5 : V7 m ρ c main_v81 = val_main_v86 (F := Ideal) (L m c main_arg5) := W7_brow m ρ c
  rw [e0, e1, e2, e3, e4, e5] at h0
  exact (W8_arr m ρ c 6).trans (h0.trans (layer1_eq _ _ _ _ _ _).symm)

theorem out2 :
    W10 m ρ c (Proc.devRef .tc main_v101) = val_main_v117 (F := Ideal) (L m c main_arg0) (L m c main_arg1) (L m c main_arg2) (L m c main_arg3) (L m c main_arg4) (L m c main_arg5) (L m c main_arg6) (L m c main_arg7) := by
  have y := out1 m ρ c
  have h1 := final1 (V9 m ρ) c
  have e0 : V9 m ρ c main_v82 = val_main_v89 (F := Ideal) (L m c main_arg0) (L m c main_arg1) (L m c main_arg2) (L m c main_arg3) (L m c main_arg4) (L m c main_arg5) := (W9_of m ρ c main_v82 (by decide)).trans y
  have e1 : V9 m ρ c main_v95 = val_main_v105 (F := Ideal) (L m c main_arg0) (L m c main_arg1) (L m c main_arg2) (L m c main_arg3) (L m c main_arg4) (L m c main_arg5) :=
    hostOps1_sums (W8 m ρ c) (L m c main_arg0) (L m c main_arg1) (L m c main_arg2) (L m c main_arg3) (L m c main_arg4) (L m c main_arg5) y
      ((W8_keep m ρ c main_v52 (by decide)).trans (W7_v52 m ρ c))
      ((W8_keep m ρ c main_v1 (by decide)).trans (W7_v1 m ρ c))
      ((W8_keep m ρ c main_v3 (by decide)).trans (W7_v3 m ρ c))
  have e2 : V9 m ρ c main_v62 = val_main_v106 (F := Ideal) (L m c main_arg2) (L m c main_arg3) :=
    (W9_W7 m ρ c main_v62 (by decide) (by decide)).trans (W7_dcol m ρ c)
  have a6 : W8 m ρ c (Proc.devRef .tc main_arg6) = (L m c main_arg6) :=
    (W8_keep m ρ c main_arg6 (by decide)).trans (W7_launch m ρ c main_arg6 (by decide))
  have a7 : W8 m ρ c (Proc.devRef .tc main_arg7) = (L m c main_arg7) :=
    (W8_keep m ρ c main_arg7 (by decide)).trans (W7_launch m ρ c main_arg7 (by decide))
  have e3 : V9 m ρ c main_v97 = val_main_v91 (F := Ideal) (L m c main_arg6) := hostOps1_w0 (W8 m ρ c) (L m c main_arg6) a6
  have e4 : V9 m ρ c main_v99 = val_main_v111 (F := Ideal) (L m c main_arg6) := hostOps1_w1 (W8 m ρ c) (L m c main_arg6) a6
  have e5 : V9 m ρ c main_v100 = val_main_v114 (F := Ideal) (L m c main_arg7) :=
    (hostOps1_bias (W8 m ρ c) (L m c main_arg7) a7).trans (Lay.row64 _ _ _)
  rw [e0, e1, e2, e3, e4, e5] at h1
  exact (W10_arr m ρ c 6).trans (h1.trans (layer2_eq _ _ _ _ _ _ _ _).symm)

theorem out3 :
    W12 m ρ c (Proc.devRef .tc main_v120) = val_main_v145 (F := Ideal) (L m c main_arg0) (L m c main_arg1) (L m c main_arg2) (L m c main_arg3) (L m c main_arg4) (L m c main_arg5) (L m c main_arg6) (L m c main_arg7) (L m c main_arg8) (L m c main_arg9) := by
  have y := out2 m ρ c
  have h2 := final2 (V11 m ρ) c
  have e0 : V11 m ρ c main_v101 = val_main_v117 (F := Ideal) (L m c main_arg0) (L m c main_arg1) (L m c main_arg2) (L m c main_arg3) (L m c main_arg4) (L m c main_arg5) (L m c main_arg6) (L m c main_arg7) := (W11_of m ρ c main_v101 (by decide)).trans y
  have e1 : V11 m ρ c main_v114 = val_main_v133 (F := Ideal) (L m c main_arg0) (L m c main_arg1) (L m c main_arg2) (L m c main_arg3) (L m c main_arg4) (L m c main_arg5) (L m c main_arg6) (L m c main_arg7) :=
    hostOps2_sums (W10 m ρ c) (L m c main_arg0) (L m c main_arg1) (L m c main_arg2) (L m c main_arg3) (L m c main_arg4) (L m c main_arg5) (L m c main_arg6) (L m c main_arg7) y
      ((W10_W7 m ρ c main_v52 (by decide) (by decide) (by decide)).trans (W7_v52 m ρ c))
      ((W10_W7 m ρ c main_v1 (by decide) (by decide) (by decide)).trans (W7_v1 m ρ c))
      ((W10_W7 m ρ c main_v3 (by decide) (by decide) (by decide)).trans (W7_v3 m ρ c))
  have e2 : V11 m ρ c main_v62 = val_main_v134 (F := Ideal) (L m c main_arg2) (L m c main_arg3) :=
    (W11_W7 m ρ c main_v62 (by decide) (by decide) (by decide) (by decide)).trans (W7_dcol m ρ c)
  have a8 : W10 m ρ c (Proc.devRef .tc main_arg8) = (L m c main_arg8) :=
    (W10_W7 m ρ c main_arg8 (by decide) (by decide) (by decide)).trans (W7_launch m ρ c main_arg8 (by decide))
  have a9 : W10 m ρ c (Proc.devRef .tc main_arg9) = (L m c main_arg9) :=
    (W10_W7 m ρ c main_arg9 (by decide) (by decide) (by decide)).trans (W7_launch m ρ c main_arg9 (by decide))
  have e3 : V11 m ρ c main_v116 = val_main_v119 (F := Ideal) (L m c main_arg8) := hostOps2_w0 (W10 m ρ c) (L m c main_arg8) a8
  have e4 : V11 m ρ c main_v118 = val_main_v139 (F := Ideal) (L m c main_arg8) := hostOps2_w1 (W10 m ρ c) (L m c main_arg8) a8
  have e5 : V11 m ρ c main_v119 = val_main_v142 (F := Ideal) (L m c main_arg9) :=
    (hostOps2_bias (W10 m ρ c) (L m c main_arg9) a9).trans (Lay.row64 _ _ _)
  rw [e0, e1, e2, e3, e4, e5] at h2
  exact (W12_arr m ρ c 6).trans (h2.trans (layer3_eq _ _ _ _ _ _ _ _ _ _).symm)

theorem kout_eq : (dat3 (F := Ideal) (V13 m ρ) c).arrAt 11 cfg3.N = val_main_v185 (F := Ideal) (L m c main_arg0) (L m c main_arg1) (L m c main_arg2) (L m c main_arg3) (L m c main_arg4) (L m c main_arg5) (L m c main_arg6) (L m c main_arg7) (L m c main_arg8) (L m c main_arg9) (L m c main_arg10) (L m c main_arg11) (L m c main_arg12) (L m c main_arg13) (L m c main_arg14) (L m c main_arg15) := by
  have y := out3 m ρ c
  have h3 := final3 (V13 m ρ) c
  have e0 : V13 m ρ c main_v120 = val_main_v145 (F := Ideal) (L m c main_arg0) (L m c main_arg1) (L m c main_arg2) (L m c main_arg3) (L m c main_arg4) (L m c main_arg5) (L m c main_arg6) (L m c main_arg7) (L m c main_arg8) (L m c main_arg9) := (W13_of m ρ c main_v120 (by decide)).trans y
  have e1 : V13 m ρ c main_v133 = val_main_v161 (F := Ideal) (L m c main_arg0) (L m c main_arg1) (L m c main_arg2) (L m c main_arg3) (L m c main_arg4) (L m c main_arg5) (L m c main_arg6) (L m c main_arg7) (L m c main_arg8) (L m c main_arg9) :=
    hostOps3_sums (W12 m ρ c) (L m c main_arg0) (L m c main_arg1) (L m c main_arg2) (L m c main_arg3) (L m c main_arg4) (L m c main_arg5) (L m c main_arg6) (L m c main_arg7) (L m c main_arg8) (L m c main_arg9) y
      ((W12_W7 m ρ c main_v52 (by decide) (by decide) (by decide) (by decide) (by decide)).trans (W7_v52 m ρ c))
      ((W12_W7 m ρ c main_v1 (by decide) (by decide) (by decide) (by decide) (by decide)).trans (W7_v1 m ρ c))
      ((W12_W7 m ρ c main_v3 (by decide) (by decide) (by decide) (by decide) (by decide)).trans (W7_v3 m ρ c))
  have e2 : V13 m ρ c main_v62 = val_main_v162 (F := Ideal) (L m c main_arg2) (L m c main_arg3) :=
    (W13_W7 m ρ c main_v62 (by decide) (by decide) (by decide) (by decide) (by decide) (by decide)).trans (W7_dcol m ρ c)
  have arg : ∀ r : Ref sig .tc, r ∉ prefixW → r ∉ hostOps1_W → r ∉ hostOps2_W → Pipeline.arrRef spec0 6 ≠ r →
      Pipeline.arrRef spec1 6 ≠ r → Pipeline.arrRef spec2 6 ≠ r → W12 m ρ c (Proc.devRef .tc r) = L m c r :=
    fun r hp b1 b2 h0 h1 h2 => (W12_W7 m ρ c r b1 b2 h0 h1 h2).trans (W7_launch m ρ c r hp)
  have a10 := arg main_arg10 (by decide) (by decide) (by decide) (by decide) (by decide) (by decide)
  have a11 := arg main_arg11 (by decide) (by decide) (by decide) (by decide) (by decide) (by decide)
  have a13 := arg main_arg13 (by decide) (by decide) (by decide) (by decide) (by decide) (by decide)
  have a15 := arg main_arg15 (by decide) (by decide) (by decide) (by decide) (by decide) (by decide)
  have e3 : V13 m ρ c main_v135 = val_main_v147 (F := Ideal) (L m c main_arg10) := hostOps3_w0 (W12 m ρ c) (L m c main_arg10) a10
  have e4 : V13 m ρ c main_v137 = val_main_v167 (F := Ideal) (L m c main_arg10) := hostOps3_w1 (W12 m ρ c) (L m c main_arg10) a10
  have e5 : V13 m ρ c main_v138 = val_main_v170 (F := Ideal) (L m c main_arg11) :=
    (hostOps3_bias (W12 m ρ c) (L m c main_arg11) a11).trans (Lay.row64 _ _ _)
  have e6 : V13 m ρ c main_v63 = val_main_v175 (F := Ideal) (L m c main_arg2) :=
    (W13_W7 m ρ c main_v63 (by decide) (by decide) (by decide) (by decide) (by decide) (by decide)).trans (W7_bcol m ρ c)
  have e7 : V13 m ρ c main_arg12 = (L m c main_arg12) :=
    (W13_of m ρ c main_arg12 (by decide)).trans (arg main_arg12 (by decide) (by decide) (by decide) (by decide) (by decide) (by decide))
  have e8 : V13 m ρ c main_v139 = val_main_v178 (F := Ideal) (L m c main_arg13) :=
    (hostOps3_hb1 (W12 m ρ c) (L m c main_arg13) a13).trans (Lay.row32 _ _ _)
  have e9 : V13 m ρ c main_arg14 = (L m c main_arg14) :=
    (W13_of m ρ c main_arg14 (by decide)).trans (arg main_arg14 (by decide) (by decide) (by decide) (by decide) (by decide) (by decide))
  have e10 : V13 m ρ c main_v140 = val_main_v183 (F := Ideal) (L m c main_arg15) :=
    (hostOps3_hb2 (W12 m ρ c) (L m c main_arg15) a15).trans (Lay.row1 _ _ _)
  rw [e0, e1, e2, e3, e4, e5, e6, e7, e8, e9, e10] at h3
  rw [← layer4_eq (L m c main_arg0) (L m c main_arg1) (L m c main_arg2) (L m c main_arg3) (L m c main_arg4) (L m c main_arg5) (L m c main_arg6) (L m c main_arg7) (L m c main_arg8) (L m c main_arg9) (L m c main_arg10) (L m c main_arg11)] at h3
  exact h3.trans (head_eq (L m c main_arg0) (L m c main_arg1) (L m c main_arg2) (L m c main_arg3) (L m c main_arg4) (L m c main_arg5) (L m c main_arg6) (L m c main_arg7) (L m c main_arg8) (L m c main_arg9) (L m c main_arg10) (L m c main_arg11) (L m c main_arg12) (L m c main_arg13) (L m c main_arg14) (L m c main_arg15)).symm

end Chain
end Cert.Bridge
end
-- ==== Proof.RefRun.lean ====
/- The reference's straight-line run cut into six stretches; each stretch's output is its stage of the sixteen arguments, and no operation writes an argument. -/
import proofs.«411333_j58291296141746_2_alg».proof.Proof.RefStages

noncomputable section

namespace Cert.ReferenceIdeal.HandRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

theorem after_take_cons (n : ℕ) (op : HloOp τ sig (Elt F)) (l : List (HloOp τ sig (Elt F))) (V : Valuation τ sig (Elt F)) :
    after (List.take (n + 1) (op :: l)) V = after (List.take n l) (op.result V) := rfl
theorem after_take_zero (l : List (HloOp τ sig (Elt F))) (V : Valuation τ sig (Elt F)) : after (List.take 0 l) V = V := rfl

theorem take_drop_cons (k n : ℕ) (op : HloOp τ sig (Elt F)) (l : List (HloOp τ sig (Elt F))) :
    List.take k (List.drop (n + 1) (op :: l)) = List.take k (List.drop n l) := rfl
theorem take_drop_zero (k : ℕ) (l : List (HloOp τ sig (Elt F))) : List.take k (List.drop 0 l) = List.take k l := rfl

macro "stage_simp" : tactic =>
  `(tactic| (simp (disch := decide) only [ops, take_drop_cons, take_drop_zero, after_take_cons, after_take_zero, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

abbrev wr : List (Ref sig .tc) :=
  [ main_v0, main_v1, main_v2, main_v3, main_v4, main_cst, main_cst_0, main_call0_v0, main_call0_v1, main_v5,
    main_v6, main_cst_1, main_v7, main_v8, main_v9, main_cst_2, main_v10, main_v11, main_cst_3, main_v12,
    main_v13, main_cst_4, main_call1_v0, main_call1_v1, main_v14, main_v15, main_cst_5, main_v16, main_v17, main_cst_6,
    main_call2_v0, main_call2_v1, main_v18, main_cst_7, main_v19, main_v20, main_c, main_v21, main_v22, main_c_8,
    main_v23, main_v24, main_v25, main_v26, main_v27, main_v28, main_v29, main_c_9, main_v30, main_v31,
    main_c_10, main_v32, main_v33, main_v34, main_v35, main_v36, main_v37, main_c_11, main_v38, main_v39,
    main_c_12, main_v40, main_v41, main_v42, main_v43, main_v44, main_c_13, main_v45, main_v46, main_c_14,
    main_v47, main_v48, main_v49, main_v50, main_v51, main_v52, main_c_15, main_v53, main_v54, main_c_16,
    main_v55, main_v56, main_v57, main_v58, main_v59, main_cst_17, main_v60, main_v61,
    main_v62, main_v63, main_v64, main_v65, main_c_18, main_v66, main_v67, main_c_19, main_v68, main_v69,
    main_v70, main_v71, main_v72, main_v73, main_v74, main_cst_20, main_v75, main_v76, main_v77, main_v78,
    main_v79, main_v80, main_v81, main_v82, main_v83, main_v84, main_v85, main_v86, main_v87, main_v88,
    main_call3_cst, main_call3_v0, main_v89,
    main_v90, main_v91, main_v92, main_v93, main_c_21, main_v94, main_v95, main_c_22, main_v96, main_v97,
    main_v98, main_v99, main_v100, main_v101, main_v102, main_cst_23, main_v103, main_v104, main_v105, main_v106,
    main_v107, main_v108, main_v109, main_v110, main_v111, main_v112, main_v113, main_v114, main_v115, main_v116,
    main_call4_cst, main_call4_v0, main_v117,
    main_v118, main_v119, main_v120, main_v121, main_c_24, main_v122, main_v123, main_c_25, main_v124, main_v125,
    main_v126, main_v127, main_v128, main_v129, main_v130, main_cst_26, main_v131, main_v132, main_v133, main_v134,
    main_v135, main_v136, main_v137, main_v138, main_v139, main_v140, main_v141, main_v142, main_v143, main_v144,
    main_call5_cst, main_call5_v0, main_v145,
    main_v146, main_v147, main_v148, main_v149, main_c_27, main_v150, main_v151, main_c_28, main_v152, main_v153,
    main_v154, main_v155, main_v156, main_v157, main_v158, main_cst_29, main_v159, main_v160, main_v161, main_v162,
    main_v163, main_v164, main_v165, main_v166, main_v167, main_v168, main_v169, main_v170, main_v171, main_v172,
    main_call6_cst, main_call6_v0, main_v173,
    main_cst_30, main_v174, main_v175, main_v176, main_v177, main_v178, main_v179, main_v180, main_call7_cst, main_call7_v0,
    main_v181, main_v182, main_v183, main_v184, main_v185 ]

set_option maxRecDepth 8192 in

theorem ops_writes : (ops (F := F)).map HloOp.writes = wr.map fun r => ({Proc.devRef .tc r} : Finset (DevRef τ sig)) := rfl

set_option maxRecDepth 8192 in

theorem ops_fresh : (ops (F := F)).map HloOp.fresh = List.replicate 235 (∅ : Finset (DevRef τ sig)) := rfl

theorem kept (i k : ℕ) (W : Valuation τ sig (Elt F)) (r : Ref sig .tc) (h : r ∉ List.take k (List.drop i wr)) :
    after (List.take k (List.drop i (ops (F := F)))) W (Proc.devRef .tc r) = W (Proc.devRef .tc r) := by
  refine after_of_forall_not_mem _ _ fun op hop hb => h ?_
  have hm : op.writes ∈ (List.take k (List.drop i (ops (F := F)))).map HloOp.writes := List.mem_map_of_mem hop
  rw [List.map_take, List.map_drop, ops_writes, ← List.map_drop, ← List.map_take] at hm
  obtain ⟨y, hy, he⟩ := List.mem_map.mp hm
  rw [← he, Finset.mem_singleton] at hb
  exact (Proc.devRef_injective _ hb) ▸ hy

theorem kept_arg (i k : ℕ) (W : Valuation τ sig (Elt F)) (r : Ref sig .tc) (h : r ∉ wr) :
    after (List.take k (List.drop i (ops (F := F)))) W (Proc.devRef .tc r) = W (Proc.devRef .tc r) :=
  kept i k W r fun h' => h (List.mem_of_mem_drop (List.mem_of_mem_take h'))

theorem fold_arg (V : Valuation τ sig (Elt F)) (r : Ref sig .tc) (h : r ∉ wr) :
    after (ops (F := F)) V (Proc.devRef .tc r) = V (Proc.devRef .tc r) := by
  refine after_of_forall_not_mem _ _ fun op hop hb => h ?_
  have hm : op.writes ∈ (ops (F := F)).map HloOp.writes := List.mem_map_of_mem hop
  rw [ops_writes] at hm
  obtain ⟨y, hy, he⟩ := List.mem_map.mp hm
  rw [← he, Finset.mem_singleton] at hb
  exact (Proc.devRef_injective _ hb) ▸ hy

theorem after_take_drop : ∀ (k : ℕ) (l : List (HloOp τ sig (Elt F))) (V : Valuation τ sig (Elt F)),
    after (List.drop k l) (after (List.take k l) V) = after l V
  | 0, _, _ => rfl
  | _ + 1, [], _ => rfl
  | k + 1, op :: l, V => after_take_drop k l (op.result V)

abbrev S1 (V : Valuation τ sig (Elt F)) : Valuation τ sig (Elt F) := after (List.take 88 (List.drop 0 (ops (F := F)))) V

abbrev S2 (V : Valuation τ sig (Elt F)) : Valuation τ sig (Elt F) := after (List.take 33 (List.drop 88 (ops (F := F)))) (S1 V)

abbrev S3 (V : Valuation τ sig (Elt F)) : Valuation τ sig (Elt F) := after (List.take 33 (List.drop 121 (ops (F := F)))) (S2 V)

abbrev S4 (V : Valuation τ sig (Elt F)) : Valuation τ sig (Elt F) := after (List.take 33 (List.drop 154 (ops (F := F)))) (S3 V)

abbrev S5 (V : Valuation τ sig (Elt F)) : Valuation τ sig (Elt F) := after (List.take 33 (List.drop 187 (ops (F := F)))) (S4 V)

abbrev S6 (V : Valuation τ sig (Elt F)) : Valuation τ sig (Elt F) := after (List.take 15 (List.drop 220 (ops (F := F)))) (S5 V)

theorem peel (i k : ℕ) (V : Valuation τ sig (Elt F)) :
    after (List.drop i (ops (F := F))) V = after (List.drop (i + k) (ops (F := F))) (after (List.take k (List.drop i (ops (F := F)))) V) := by
  rw [← after_take_drop k (List.drop i (ops (F := F))) V, List.drop_drop]

set_option maxRecDepth 8192 in

theorem fold_split (V : Valuation τ sig (Elt F)) : after (ops (F := F)) V = S6 V :=
  calc after (ops (F := F)) V
    _ = after (List.drop 0 (ops (F := F))) V := rfl
    _ = after (List.drop 88 (ops (F := F))) (S1 V) := peel 0 88 V
    _ = after (List.drop 121 (ops (F := F))) (S2 V) := peel 88 33 (S1 V)
    _ = after (List.drop 154 (ops (F := F))) (S3 V) := peel 121 33 (S2 V)
    _ = after (List.drop 187 (ops (F := F))) (S4 V) := peel 154 33 (S3 V)
    _ = after (List.drop 220 (ops (F := F))) (S5 V) := peel 187 33 (S4 V)
    _ = after (List.drop 235 (ops (F := F))) (S6 V) := peel 220 15 (S5 V)
    _ = S6 V := rfl

theorem pre_v1 (V : Valuation τ sig (Elt F)) :
    S1 V (Proc.devRef .tc main_v1) = val_main_v1 (F := F) (V (Proc.devRef .tc main_arg1)) := by
  unfold S1
  stage_simp
  rfl

theorem pre_v3 (V : Valuation τ sig (Elt F)) :
    S1 V (Proc.devRef .tc main_v3) = val_main_v3 (F := F) (V (Proc.devRef .tc main_arg1)) := by
  unfold S1
  stage_simp
  rfl

theorem pre_v52 (V : Valuation τ sig (Elt F)) :
    S1 V (Proc.devRef .tc main_v52) = val_main_v52 (F := F) (V (Proc.devRef .tc main_arg1)) (V (Proc.devRef .tc main_arg2)) (V (Proc.devRef .tc main_arg3)) := by
  unfold S1
  stage_simp
  rfl

theorem pre_v61 (V : Valuation τ sig (Elt F)) :
    S1 V (Proc.devRef .tc main_v61) = val_main_v61 (F := F) (V (Proc.devRef .tc main_arg2)) (V (Proc.devRef .tc main_arg3)) := by
  unfold S1
  stage_simp
  rfl

theorem layer1 (V W : Valuation τ sig (Elt F)) (ha : ∀ r, r ∉ wr → W (Proc.devRef .tc r) = V (Proc.devRef .tc r))
    (hv1 : W (Proc.devRef .tc main_v1) = val_main_v1 (F := F) (V (Proc.devRef .tc main_arg1))) (hv3 : W (Proc.devRef .tc main_v3) = val_main_v3 (F := F) (V (Proc.devRef .tc main_arg1)))
    (hv52 : W (Proc.devRef .tc main_v52) = val_main_v52 (F := F) (V (Proc.devRef .tc main_arg1)) (V (Proc.devRef .tc main_arg2)) (V (Proc.devRef .tc main_arg3))) (hv61 : W (Proc.devRef .tc main_v61) = val_main_v61 (F := F) (V (Proc.devRef .tc main_arg2)) (V (Proc.devRef .tc main_arg3))) :
    after (List.take 33 (List.drop 88 (ops (F := F)))) W (Proc.devRef .tc main_v89) = val_main_v89 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  stage_simp
  rw [hv1, hv3, hv52, hv61, ha main_arg0 (by decide), ha main_arg4 (by decide), ha main_arg5 (by decide)]
  rfl

theorem layer2 (V W : Valuation τ sig (Elt F)) (ha : ∀ r, r ∉ wr → W (Proc.devRef .tc r) = V (Proc.devRef .tc r))
    (hv1 : W (Proc.devRef .tc main_v1) = val_main_v1 (F := F) (V (Proc.devRef .tc main_arg1))) (hv3 : W (Proc.devRef .tc main_v3) = val_main_v3 (F := F) (V (Proc.devRef .tc main_arg1)))
    (hv52 : W (Proc.devRef .tc main_v52) = val_main_v52 (F := F) (V (Proc.devRef .tc main_arg1)) (V (Proc.devRef .tc main_arg2)) (V (Proc.devRef .tc main_arg3))) (hv61 : W (Proc.devRef .tc main_v61) = val_main_v61 (F := F) (V (Proc.devRef .tc main_arg2)) (V (Proc.devRef .tc main_arg3)))
    (hin : W (Proc.devRef .tc main_v89) = val_main_v89 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (List.take 33 (List.drop 121 (ops (F := F)))) W (Proc.devRef .tc main_v117) = val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  stage_simp
  rw [hv1, hv3, hv52, hv61, hin, ha main_arg6 (by decide), ha main_arg7 (by decide)]
  rfl

theorem layer3 (V W : Valuation τ sig (Elt F)) (ha : ∀ r, r ∉ wr → W (Proc.devRef .tc r) = V (Proc.devRef .tc r))
    (hv1 : W (Proc.devRef .tc main_v1) = val_main_v1 (F := F) (V (Proc.devRef .tc main_arg1))) (hv3 : W (Proc.devRef .tc main_v3) = val_main_v3 (F := F) (V (Proc.devRef .tc main_arg1)))
    (hv52 : W (Proc.devRef .tc main_v52) = val_main_v52 (F := F) (V (Proc.devRef .tc main_arg1)) (V (Proc.devRef .tc main_arg2)) (V (Proc.devRef .tc main_arg3))) (hv61 : W (Proc.devRef .tc main_v61) = val_main_v61 (F := F) (V (Proc.devRef .tc main_arg2)) (V (Proc.devRef .tc main_arg3)))
    (hin : W (Proc.devRef .tc main_v117) = val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :
    after (List.take 33 (List.drop 154 (ops (F := F)))) W (Proc.devRef .tc main_v145) = val_main_v145 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  stage_simp
  rw [hv1, hv3, hv52, hv61, hin, ha main_arg8 (by decide), ha main_arg9 (by decide)]
  rfl

theorem layer4 (V W : Valuation τ sig (Elt F)) (ha : ∀ r, r ∉ wr → W (Proc.devRef .tc r) = V (Proc.devRef .tc r))
    (hv1 : W (Proc.devRef .tc main_v1) = val_main_v1 (F := F) (V (Proc.devRef .tc main_arg1))) (hv3 : W (Proc.devRef .tc main_v3) = val_main_v3 (F := F) (V (Proc.devRef .tc main_arg1)))
    (hv52 : W (Proc.devRef .tc main_v52) = val_main_v52 (F := F) (V (Proc.devRef .tc main_arg1)) (V (Proc.devRef .tc main_arg2)) (V (Proc.devRef .tc main_arg3))) (hv61 : W (Proc.devRef .tc main_v61) = val_main_v61 (F := F) (V (Proc.devRef .tc main_arg2)) (V (Proc.devRef .tc main_arg3)))
    (hin : W (Proc.devRef .tc main_v145) = val_main_v145 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) :
    after (List.take 33 (List.drop 187 (ops (F := F)))) W (Proc.devRef .tc main_v173) = val_main_v173 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  stage_simp
  rw [hv1, hv3, hv52, hv61, hin, ha main_arg10 (by decide), ha main_arg11 (by decide)]
  rfl

theorem head (V W : Valuation τ sig (Elt F)) (ha : ∀ r, r ∉ wr → W (Proc.devRef .tc r) = V (Proc.devRef .tc r))
    (hin : W (Proc.devRef .tc main_v173) = val_main_v173 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))) :
    after (List.take 15 (List.drop 220 (ops (F := F)))) W (Proc.devRef .tc main_v185) = val_main_v185 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  stage_simp
  rw [hin, ha main_arg2 (by decide), ha main_arg12 (by decide), ha main_arg13 (by decide), ha main_arg14 (by decide), ha main_arg15 (by decide)]
  rfl

theorem S1_arg (V : Valuation τ sig (Elt F)) (r : Ref sig .tc) (h : r ∉ wr) : S1 V (Proc.devRef .tc r) = V (Proc.devRef .tc r) :=
  kept_arg 0 88 V r h
theorem S2_arg (V : Valuation τ sig (Elt F)) (r : Ref sig .tc) (h : r ∉ wr) : S2 V (Proc.devRef .tc r) = V (Proc.devRef .tc r) :=
  (kept_arg 88 33 (S1 V) r h).trans (S1_arg V r h)
theorem S3_arg (V : Valuation τ sig (Elt F)) (r : Ref sig .tc) (h : r ∉ wr) : S3 V (Proc.devRef .tc r) = V (Proc.devRef .tc r) :=
  (kept_arg 121 33 (S2 V) r h).trans (S2_arg V r h)
theorem S4_arg (V : Valuation τ sig (Elt F)) (r : Ref sig .tc) (h : r ∉ wr) : S4 V (Proc.devRef .tc r) = V (Proc.devRef .tc r) :=
  (kept_arg 154 33 (S3 V) r h).trans (S3_arg V r h)
theorem S5_arg (V : Valuation τ sig (Elt F)) (r : Ref sig .tc) (h : r ∉ wr) : S5 V (Proc.devRef .tc r) = V (Proc.devRef .tc r) :=
  (kept_arg 187 33 (S4 V) r h).trans (S4_arg V r h)

theorem S2_pre (V : Valuation τ sig (Elt F)) (r : Ref sig .tc) (h : r ∉ List.take 33 (List.drop 88 wr)) :
    S2 V (Proc.devRef .tc r) = S1 V (Proc.devRef .tc r) := kept 88 33 (S1 V) r h
theorem S3_pre (V : Valuation τ sig (Elt F)) (r : Ref sig .tc) (h2 : r ∉ List.take 33 (List.drop 88 wr)) (h3 : r ∉ List.take 33 (List.drop 121 wr)) :
    S3 V (Proc.devRef .tc r) = S1 V (Proc.devRef .tc r) := (kept 121 33 (S2 V) r h3).trans (S2_pre V r h2)
theorem S4_pre (V : Valuation τ sig (Elt F)) (r : Ref sig .tc) (h2 : r ∉ List.take 33 (List.drop 88 wr)) (h3 : r ∉ List.take 33 (List.drop 121 wr))
    (h4 : r ∉ List.take 33 (List.drop 154 wr)) :
    S4 V (Proc.devRef .tc r) = S1 V (Proc.devRef .tc r) := (kept 154 33 (S3 V) r h4).trans (S3_pre V r h2 h3)

theorem S2_v89 (V : Valuation τ sig (Elt F)) : S2 V (Proc.devRef .tc main_v89) = val_main_v89 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  layer1 V (S1 V) (S1_arg V) (pre_v1 V) (pre_v3 V) (pre_v52 V) (pre_v61 V)
theorem S3_v117 (V : Valuation τ sig (Elt F)) : S3 V (Proc.devRef .tc main_v117) = val_main_v117 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  layer2 V (S2 V) (S2_arg V)
    ((S2_pre V main_v1 (by decide)).trans (pre_v1 V)) ((S2_pre V main_v3 (by decide)).trans (pre_v3 V))
    ((S2_pre V main_v52 (by decide)).trans (pre_v52 V)) ((S2_pre V main_v61 (by decide)).trans (pre_v61 V)) (S2_v89 V)
theorem S4_v145 (V : Valuation τ sig (Elt F)) : S4 V (Proc.devRef .tc main_v145) = val_main_v145 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  layer3 V (S3 V) (S3_arg V)
    ((S3_pre V main_v1 (by decide) (by decide)).trans (pre_v1 V)) ((S3_pre V main_v3 (by decide) (by decide)).trans (pre_v3 V))
    ((S3_pre V main_v52 (by decide) (by decide)).trans (pre_v52 V)) ((S3_pre V main_v61 (by decide) (by decide)).trans (pre_v61 V)) (S3_v117 V)
theorem S5_v173 (V : Valuation τ sig (Elt F)) : S5 V (Proc.devRef .tc main_v173) = val_main_v173 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  layer4 V (S4 V) (S4_arg V)
    ((S4_pre V main_v1 (by decide) (by decide) (by decide)).trans (pre_v1 V)) ((S4_pre V main_v3 (by decide) (by decide) (by decide)).trans (pre_v3 V))
    ((S4_pre V main_v52 (by decide) (by decide) (by decide)).trans (pre_v52 V)) ((S4_pre V main_v61 (by decide) (by decide) (by decide)).trans (pre_v61 V)) (S4_v145 V)

theorem fold_v185 (V : Valuation τ sig (Elt F)) :
    after (ops (F := F)) V (Proc.devRef .tc main_v185) = val_main_v185 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (congrFun (fold_split V) _).trans (head V (S5 V) (S5_arg V) (S5_v173 V))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v185) = val_main_v185 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v185).trans (fold_v185 (launchContents m c)),
      (h c main_arg0).trans (fold_arg (launchContents m c) main_arg0 (by decide)),
      (h c main_arg1).trans (fold_arg (launchContents m c) main_arg1 (by decide)),
      (h c main_arg2).trans (fold_arg (launchContents m c) main_arg2 (by decide)),
      (h c main_arg3).trans (fold_arg (launchContents m c) main_arg3 (by decide)),
      (h c main_arg4).trans (fold_arg (launchContents m c) main_arg4 (by decide)),
      (h c main_arg5).trans (fold_arg (launchContents m c) main_arg5 (by decide)),
      (h c main_arg6).trans (fold_arg (launchContents m c) main_arg6 (by decide)),
      (h c main_arg7).trans (fold_arg (launchContents m c) main_arg7 (by decide)),
      (h c main_arg8).trans (fold_arg (launchContents m c) main_arg8 (by decide)),
      (h c main_arg9).trans (fold_arg (launchContents m c) main_arg9 (by decide)),
      (h c main_arg10).trans (fold_arg (launchContents m c) main_arg10 (by decide)),
      (h c main_arg11).trans (fold_arg (launchContents m c) main_arg11 (by decide)),
      (h c main_arg12).trans (fold_arg (launchContents m c) main_arg12 (by decide)),
      (h c main_arg13).trans (fold_arg (launchContents m c) main_arg13 (by decide)),
      (h c main_arg14).trans (fold_arg (launchContents m c) main_arg14 (by decide)),
      (h c main_arg15).trans (fold_arg (launchContents m c) main_arg15 (by decide))⟩)
    (run_seq scopedRefs_eq scopedSems_eq defs main (fun _ => ops) main_eq (fun _ => ops_sub) m ρ
      (hfresh := fun _ op hop => by
        have hm : op.fresh ∈ (ops (F := F)).map HloOp.fresh := List.mem_map_of_mem hop
        rw [ops_fresh] at hm
        exact List.eq_of_mem_replicate hm))

end Cert.ReferenceIdeal.HandRun

end
-- ==== Proof.lean ====
/- The five claims: the two kernel programs' frames from the segment-by-segment run, the reference's from its stage-by-stage run, and the value claim by reading both results as one function of the sixteen arguments. -/
import proofs.«411333_j58291296141746_2_alg».proof.Defs
import proofs.«411333_j58291296141746_2_alg».proof.Proof.Gen.Kernel
import proofs.«411333_j58291296141746_2_alg».proof.Proof.Gen.Kernel.Skeleton
import proofs.«411333_j58291296141746_2_alg».proof.Proof.Gen.Kernel.Launch
import proofs.«411333_j58291296141746_2_alg».proof.Proof.Gen.Kernel.Regions
import proofs.«411333_j58291296141746_2_alg».proof.Proof.Gen.Kernel.Points
import proofs.«411333_j58291296141746_2_alg».proof.Proof.Gen.KernelIdeal
import proofs.«411333_j58291296141746_2_alg».proof.Proof.Gen.KernelIdeal.Skeleton
import proofs.«411333_j58291296141746_2_alg».proof.Proof.Gen.KernelIdeal.Launch
import proofs.«411333_j58291296141746_2_alg».proof.Proof.Gen.KernelIdeal.Regions
import proofs.«411333_j58291296141746_2_alg».proof.Proof.Gen.KernelIdeal.Points
import proofs.«411333_j58291296141746_2_alg».proof.Proof.Gen.ReferenceIdeal
import proofs.«411333_j58291296141746_2_alg».proof.Proof.Gen.Pre_finite_inputs
import proofs.«411333_j58291296141746_2_alg».proof.Proof.K.Segs
import proofs.«411333_j58291296141746_2_alg».proof.Proof.KI.Segs
import proofs.«411333_j58291296141746_2_alg».proof.Proof.Bridge
import proofs.«411333_j58291296141746_2_alg».proof.Proof.RefSide
import proofs.«411333_j58291296141746_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

open Cert.KernelIdeal in
/-- The reference's last stage at the sixteen argument arrays of the launch memory. -/
abbrev result (m : (ℓ : Loc nD τ sig) → Buf (Elt Ideal) ℓ) (c : Dev nD) : Buf (Elt Ideal) ((c.tc : Thread nD τ).loc main_v141) :=
  Cert.ReferenceIdeal.Read.val_main_v185 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

theorem algebraic : Cert.algebraic_KernelIdeal_ReferenceIdeal := by
  intro m ρ m' ρ' _ hagree
  refine ⟨fun c => result m c, ?_, ?_⟩
  · exact (θ_run Cert.KernelIdeal.defs _ _).mono
      (fun r h c => ⟨(h c).1.trans (Cert.Bridge.kout_eq m ρ c), (h c).2⟩)
      (Cert.KernelIdeal.Hand.run_full (F := Ideal) m ρ)
  · refine (θ_run Cert.ReferenceIdeal.defs _ _).mono (fun r h c => ⟨(h c).1.trans ?_, (h c).2⟩) (Cert.ReferenceIdeal.HandRun.run (F := Ideal) m' ρ')
    obtain ⟨a0, a1, a2, a3, a4, a5, a6, a7, a8, a9, a10, a11, a12, a13, a14, a15⟩ := hagree c
    rw [a0, a1, a2, a3, a4, a5, a6, a7, a8, a9, a10, a11, a12, a13, a14, a15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
